-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x50 : Shape := ⟨2, ![10000, 50]⟩
abbrev S2x160000 : Shape := ⟨2, ![2, 160000]⟩
abbrev S50x512 : Shape := ⟨2, ![50, 512]⟩
abbrev S512 : Shape := ⟨1, ![512]⟩
abbrev S512x121 : Shape := ⟨2, ![512, 121]⟩
abbrev S121 : Shape := ⟨1, ![121]⟩
abbrev S_ : Shape := ⟨0, ![]⟩

class Facts : Prop where
  bcast_S_S10000x50 : S_.BroadcastsInDim S10000x50 (![] : Fin 0 → Fin S10000x50.rank)
  reducesTo_S10000x50_S_d0_1 : S10000x50.ReducesTo [0, 1] S_
  h_S_ : 0 < S_.numel
  bcast_S_S50x512 : S_.BroadcastsInDim S50x512 (![] : Fin 0 → Fin S50x512.rank)
  reducesTo_S50x512_S_d0_1 : S50x512.ReducesTo [0, 1] S_
  bcast_S_S512 : S_.BroadcastsInDim S512 (![] : Fin 0 → Fin S512.rank)
  reducesTo_S512_S_d0 : S512.ReducesTo [0] S_
  bcast_S_S512x121 : S_.BroadcastsInDim S512x121 (![] : Fin 0 → Fin S512x121.rank)
  reducesTo_S512x121_S_d0_1 : S512x121.ReducesTo [0, 1] S_
  bcast_S_S121 : S_.BroadcastsInDim S121 (![] : Fin 0 → Fin S121.rank)
  reducesTo_S121_S_d0 : S121.ReducesTo [0] S_
  bcast_S_S2x160000 : S_.BroadcastsInDim S2x160000 (![] : Fin 0 → Fin S2x160000.rank)
  reducesTo_S2x160000_S_d0_1 : S2x160000.ReducesTo [0, 1] S_

variable [Facts]

def fn_part2 {F : FTy → Type} [FloatOps F] (main_arg1 : IVec S2x160000 32) (main_v33 : IVec S_ 1) : IVec S_ 1 :=
  let main_c_12 : IVec S_ 32 := constantI S_ 32 0#32
  let main_v34 : IVec S2x160000 32 := broadcastInDim S2x160000 ![] bcast_S_S2x160000 main_c_12
  let main_v35 : IVec S2x160000 1 := cmpi .sge main_arg1 main_v34
  let main_c_13 : IVec S_ 1 := constantI S_ 1 1#1
  let main_v36 : IVec S_ 1 := (fun x v => Host.reduce IntOp.andi x v reducesTo_S2x160000_S_d0_1 h_S_) main_v35 main_c_13
  let main_v37 : IVec S_ 1 := andi main_v33 main_v36
  let main_c_14 : IVec S_ 32 := constantI S_ 32 10000#32
  let main_v38 : IVec S2x160000 32 := broadcastInDim S2x160000 ![] bcast_S_S2x160000 main_c_14
  let main_v39 : IVec S2x160000 1 := cmpi .slt main_arg1 main_v38
  let main_c_15 : IVec S_ 1 := constantI S_ 1 1#1
  let main_v40 : IVec S_ 1 := (fun x v => Host.reduce IntOp.andi x v reducesTo_S2x160000_S_d0_1 h_S_) main_v39 main_c_15
  let main_v41 : IVec S_ 1 := andi main_v37 main_v40
  main_v41

def fn_part1 {F : FTy → Type} [FloatOps F] (main_arg1 : IVec S2x160000 32) (main_arg5 : FVec F S512x121 .f32) (main_arg6 : FVec F S512x121 .f32) (main_arg7 : FVec F S121 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x121 .f32 := Host.absf main_arg5
  let main_cst_6 : FVec F S_ .f32 := constant S_ .f32 0x7F800000#32
  let main_v20 : FVec F S512x121 .f32 := broadcastInDim S512x121 ![] bcast_S_S512x121 main_cst_6
  let main_v21 : IVec S512x121 1 := cmpf .olt main_v19 main_v20
  let main_c_7 : IVec S_ 1 := constantI S_ 1 1#1
  let main_v22 : IVec S_ 1 := (fun x v => Host.reduce IntOp.andi x v reducesTo_S512x121_S_d0_1 h_S_) main_v21 main_c_7
  let main_v23 : IVec S_ 1 := andi main_v18 main_v22
  let main_v24 : FVec F S512x121 .f32 := Host.absf main_arg6
  let main_cst_8 : FVec F S_ .f32 := constant S_ .f32 0x7F800000#32
  let main_v25 : FVec F S512x121 .f32 := broadcastInDim S512x121 ![] bcast_S_S512x121 main_cst_8
  let main_v26 : IVec S512x121 1 := cmpf .olt main_v24 main_v25
  let main_c_9 : IVec S_ 1 := constantI S_ 1 1#1
  let main_v27 : IVec S_ 1 := (fun x v => Host.reduce IntOp.andi x v reducesTo_S512x121_S_d0_1 h_S_) main_v26 main_c_9
  let main_v28 : IVec S_ 1 := andi main_v23 main_v27
  let main_v29 : FVec F S121 .f32 := Host.absf main_arg7
  let main_cst_10 : FVec F S_ .f32 := constant S_ .f32 0x7F800000#32
  let main_v30 : FVec F S121 .f32 := broadcastInDim S121 ![] bcast_S_S121 main_cst_10
  let main_v31 : IVec S121 1 := cmpf .olt main_v29 main_v30
  let main_c_11 : IVec S_ 1 := constantI S_ 1 1#1
  let main_v32 : IVec S_ 1 := (fun x v => Host.reduce IntOp.andi x v reducesTo_S121_S_d0 h_S_) main_v31 main_c_11
  let main_v33 : IVec S_ 1 := andi main_v28 main_v32
  fn_part2 (F := F) main_arg1 main_v33

def fn {F : FTy → Type} [FloatOps F] (main_arg0 : FVec F S10000x50 .f32) (main_arg1 : IVec S2x160000 32) (main_arg2 : FVec F S50x512 .f32) (main_arg3 : FVec F S50x512 .f32) (main_arg4 : FVec F S512 .f32) (main_arg5 : FVec F S512x121 .f32) (main_arg6 : FVec F S512x121 .f32) (main_arg7 : FVec F S121 .f32) : IVec S_ 1 :=
  let main_v0 : FVec F S10000x50 .f32 := Host.absf main_arg0
  let main_cst : FVec F S_ .f32 := constant S_ .f32 0x7F800000#32
  let main_v1 : FVec F S10000x50 .f32 := broadcastInDim S10000x50 ![] bcast_S_S10000x50 main_cst
  let main_v2 : IVec S10000x50 1 := cmpf .olt main_v0 main_v1
  let main_c : IVec S_ 1 := constantI S_ 1 1#1
  let main_v3 : IVec S_ 1 := (fun x v => Host.reduce IntOp.andi x v reducesTo_S10000x50_S_d0_1 h_S_) main_v2 main_c
  let main_v4 : FVec F S50x512 .f32 := Host.absf main_arg2
  let main_cst_0 : FVec F S_ .f32 := constant S_ .f32 0x7F800000#32
  let main_v5 : FVec F S50x512 .f32 := broadcastInDim S50x512 ![] bcast_S_S50x512 main_cst_0
  let main_v6 : IVec S50x512 1 := cmpf .olt main_v4 main_v5
  let main_c_1 : IVec S_ 1 := constantI S_ 1 1#1
  let main_v7 : IVec S_ 1 := (fun x v => Host.reduce IntOp.andi x v reducesTo_S50x512_S_d0_1 h_S_) main_v6 main_c_1
  let main_v8 : IVec S_ 1 := andi main_v3 main_v7
  let main_v9 : FVec F S50x512 .f32 := Host.absf main_arg3
  let main_cst_2 : FVec F S_ .f32 := constant S_ .f32 0x7F800000#32
  let main_v10 : FVec F S50x512 .f32 := broadcastInDim S50x512 ![] bcast_S_S50x512 main_cst_2
  let main_v11 : IVec S50x512 1 := cmpf .olt main_v9 main_v10
  let main_c_3 : IVec S_ 1 := constantI S_ 1 1#1
  let main_v12 : IVec S_ 1 := (fun x v => Host.reduce IntOp.andi x v reducesTo_S50x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg1 main_arg5 main_arg6 main_arg7 main_v13 main_v16
-- ==== Kernel.lean ====
abbrev S10000x50 : Shape := ⟨2, ![10000, 50]⟩
abbrev S2x160000 : Shape := ⟨2, ![2, 160000]⟩
abbrev S50x512 : Shape := ⟨2, ![50, 512]⟩
abbrev S512 : Shape := ⟨1, ![512]⟩
abbrev S512x121 : Shape := ⟨2, ![512, 121]⟩
abbrev S121 : Shape := ⟨1, ![121]⟩
abbrev S1x160000 : Shape := ⟨2, ![1, 160000]⟩
abbrev S160000 : Shape := ⟨1, ![160000]⟩
abbrev S_ : Shape := ⟨0, ![]⟩
abbrev S10240x10240 : Shape := ⟨2, ![10240, 10240]⟩
abbrev S160000x1 : Shape := ⟨2, ![160000, 1]⟩
abbrev S160000x2 : Shape := ⟨2, ![160000, 2]⟩
abbrev S10240 : Shape := ⟨1, ![10240]⟩
abbrev S10240x1 : Shape := ⟨2, ![10240, 1]⟩
abbrev S10240x50 : Shape := ⟨2, ![10240, 50]⟩
abbrev S1x512 : Shape := ⟨2, ![1, 512]⟩
abbrev S512x128 : Shape := ⟨2, ![512, 128]⟩
abbrev S128 : Shape := ⟨1, ![128]⟩
abbrev S1x128 : Shape := ⟨2, ![1, 128]⟩
abbrev S10240x512 : Shape := ⟨2, ![10240, 512]⟩
abbrev S10240x128 : Shape := ⟨2, ![10240, 128]⟩
abbrev S1024x5120 : Shape := ⟨2, ![1024, 5120]⟩
abbrev S1024x50 : Shape := ⟨2, ![1024, 50]⟩
abbrev S1024x1 : Shape := ⟨2, ![1024, 1]⟩
abbrev S1024x512 : Shape := ⟨2, ![1024, 512]⟩
abbrev S1024x128 : Shape := ⟨2, ![1024, 128]⟩
abbrev S5120x50 : Shape := ⟨2, ![5120, 50]⟩
abbrev S5120x128 : Shape := ⟨2, ![5120, 128]⟩
abbrev S10000x121 : Shape := ⟨2, ![10000, 121]⟩

abbrev nBuf : Space → Nat
  | .hbm => 78
  | .vmem => 28
  | .smem => 0
  | _ => 0

abbrev bufTy : (tb : Table) → Fin (tcTables nBuf tb) → BufTy
  | .hbm, ⟨0, _⟩ => ⟨S10000x50, .f32⟩
  | .hbm, ⟨1, _⟩ => ⟨S2x160000, .i32⟩
  | .hbm, ⟨2, _⟩ => ⟨S50x512, .f32⟩
  | .hbm, ⟨3, _⟩ => ⟨S50x512, .f32⟩
  | .hbm, ⟨4, _⟩ => ⟨S512, .f32⟩
  | .hbm, ⟨5, _⟩ => ⟨S512x121, .f32⟩
  | .hbm, ⟨6, _⟩ => ⟨S512x121, .f32⟩
  | .hbm, ⟨7, _⟩ => ⟨S121, .f32⟩
  | .hbm, ⟨8, _⟩ => ⟨S1x160000, .i32⟩
  | .hbm, ⟨9, _⟩ => ⟨S160000, .i32⟩
  | .hbm, ⟨10, _⟩ => ⟨S1x160000, .i32⟩
  | .hbm, ⟨11, _⟩ => ⟨S160000, .i32⟩
  | .hbm, ⟨12, _⟩ => ⟨S_, .i32⟩
  | .hbm, ⟨13, _⟩ => ⟨S160000, .i32⟩
  | .hbm, ⟨14, _⟩ => ⟨S_, .i32⟩
  | .hbm, ⟨15, _⟩ => ⟨S10240x10240, .i32⟩
  | .hbm, ⟨16, _⟩ => ⟨S_, .i32⟩
  | .hbm, ⟨17, _⟩ => ⟨S160000, .i32⟩
  | .hbm, ⟨18, _⟩ => ⟨S160000, .i1⟩
  | .hbm, ⟨19, _⟩ => ⟨S_, .i32⟩
  | .hbm, ⟨20, _⟩ => ⟨S160000, .i32⟩
  | .hbm, ⟨21, _⟩ => ⟨S160000, .i32⟩
  | .hbm, ⟨22, _⟩ => ⟨S160000, .i32⟩
  | .hbm, ⟨23, _⟩ => ⟨S_, .i32⟩
  | .hbm, ⟨24, _⟩ => ⟨S160000, .i32⟩
  | .hbm, ⟨25, _⟩ => ⟨S160000, .i1⟩
  | .hbm, ⟨26, _⟩ => ⟨S_, .i32⟩
  | .hbm, ⟨27, _⟩ => ⟨S160000, .i32⟩
  | .hbm, ⟨28, _⟩ => ⟨S160000, .i32⟩
  | .hbm, ⟨29, _⟩ => ⟨S160000, .i32⟩
  | .hbm, ⟨30, _⟩ => ⟨S160000x1, .i32⟩
  | .hbm, ⟨31, _⟩ => ⟨S160000x1, .i32⟩
  | .hbm, ⟨32, _⟩ => ⟨S160000x2, .i32⟩
  | .hbm, ⟨33, _⟩ => ⟨S10240x10240, .i32⟩
  | .hbm, ⟨34, _⟩ => ⟨S10240x10240, .bf16⟩
  | .hbm, ⟨35, _⟩ => ⟨S_, .f32⟩
  | .hbm, ⟨36, _⟩ => ⟨S160000, .f32⟩
  | .hbm, ⟨37, _⟩ => ⟨S_, .f32⟩
  | .hbm, ⟨38, _⟩ => ⟨S10240, .f32⟩
  | .hbm, ⟨39, _⟩ => ⟨S_, .i32⟩
  | .hbm, ⟨40, _⟩ => ⟨S160000, .i32⟩
  | .hbm, ⟨41, _⟩ => ⟨S160000, .i1⟩
  | .hbm, ⟨42, _⟩ => ⟨S_, .i32⟩
  | .hbm, ⟨43, _⟩ => ⟨S160000, .i32⟩
  | .hbm, ⟨44, _⟩ => ⟨S160000, .i32⟩
  | .hbm, ⟨45, _⟩ => ⟨S160000, .i32⟩
  | .hbm, ⟨46, _⟩ => ⟨S160000x1, .i32⟩
  | .hbm, ⟨47, _⟩ => ⟨S10240, .f32⟩
  | .hbm, ⟨48, _⟩ => ⟨S_, .f32⟩
  | .hbm, ⟨49, _⟩ => ⟨S10240, .f32⟩
  | .hbm, ⟨50, _⟩ => ⟨S10240, .f32⟩
  | .hbm, ⟨51, _⟩ => ⟨S_, .f32⟩
  | .hbm, ⟨52, _⟩ => ⟨S10240, .f32⟩
  | .hbm, ⟨53, _⟩ => ⟨S10240, .f32⟩
  | .hbm, ⟨54, _⟩ => ⟨S10240x1, .f32⟩
  | .hbm, ⟨55, _⟩ => ⟨S_, .i32⟩
  | .hbm, ⟨56, _⟩ => ⟨S_, .f32⟩
  | .hbm, ⟨57, _⟩ => ⟨S10240x50, .f32⟩
  | .hbm, ⟨58, _⟩ => ⟨S10240x50, .bf16⟩
  | .hbm, ⟨59, _⟩ => ⟨S50x512, .bf16⟩
  | .hbm, ⟨60, _⟩ => ⟨S50x512, .bf16⟩
  | .hbm, ⟨61, _⟩ => ⟨S1x512, .f32⟩
  | .hbm, ⟨62, _⟩ => ⟨S_, .i32⟩
  | .hbm, ⟨63, _⟩ => ⟨S_, .f32⟩
  | .hbm, ⟨64, _⟩ => ⟨S512x128, .f32⟩
  | .hbm, ⟨65, _⟩ => ⟨S512x128, .bf16⟩
  | .hbm, ⟨66, _⟩ => ⟨S_, .i32⟩
  | .hbm, ⟨67, _⟩ => ⟨S_, .f32⟩
  | .hbm, ⟨68, _⟩ => ⟨S512x128, .f32⟩
  | .hbm, ⟨69, _⟩ => ⟨S512x128, .bf16⟩
  | .hbm, ⟨70, _⟩ => ⟨S_, .i32⟩
  | .hbm, ⟨71, _⟩ => ⟨S_, .f32⟩
  | .hbm, ⟨72, _⟩ => ⟨S128, .f32⟩
  | .hbm, ⟨73, _⟩ => ⟨S1x128, .f32⟩
  | .hbm, ⟨74, _⟩ => ⟨S10240x512, .bf16⟩
  | .hbm, ⟨75, _⟩ => ⟨S10240x128, .bf16⟩
  | .hbm, ⟨76, _⟩ => ⟨S10240x128, .f32⟩
  | .hbm, ⟨77, _⟩ => ⟨S10000x121, .f32⟩
  | .local _ .vmem, ⟨0, _⟩ => ⟨S1024x5120, .bf16⟩
  | .local _ .vmem, ⟨1, _⟩ => ⟨S1024x5120, .bf16⟩
  | .local _ .vmem, ⟨2, _⟩ => ⟨S10240x50, .bf16⟩
  | .local _ .vmem, ⟨3, _⟩ => ⟨S1024x50, .bf16⟩
  | .local _ .vmem, ⟨4, _⟩ => ⟨S1024x50, .bf16⟩
  | .local _ .vmem, ⟨5, _⟩ => ⟨S1024x1, .f32⟩
  | .local _ .vmem, ⟨6, _⟩ => ⟨S1024x1, .f32⟩
  | .local _ .vmem, ⟨7, _⟩ => ⟨S50x512, .bf16⟩
  | .local _ .vmem, ⟨8, _⟩ => ⟨S50x512, .bf16⟩
  | .local _ .vmem, ⟨9, _⟩ => ⟨S1x512, .f32⟩
  | .local _ .vmem, ⟨10, _⟩ => ⟨S512x128, .bf16⟩
  | .local _ .vmem, ⟨11, _⟩ => ⟨S1024x512, .bf16⟩
  | .local _ .vmem, ⟨12, _⟩ => ⟨S1024x512, .bf16⟩
  | .local _ .vmem, ⟨13, _⟩ => ⟨S1024x128, .bf16⟩
  | .local _ .vmem, ⟨14, _⟩ => ⟨S1024x128, .bf16⟩
  | .local _ .vmem, ⟨15, _⟩ => ⟨S1024x50, .f32⟩
  | .local _ .vmem, ⟨16, _⟩ => ⟨S1024x5120, .bf16⟩
  | .local _ .vmem, ⟨17, _⟩ => ⟨S1024x5120, .bf16⟩
  | .local _ .vmem, ⟨18, _⟩ => ⟨S10240x128, .bf16⟩
  | .local _ .vmem, ⟨19, _⟩ => ⟨S1024x512, .bf16⟩
  | .local _ .vmem, ⟨20, _⟩ => ⟨S1024x512, .bf16⟩
  | .local _ .vmem, ⟨21, _⟩ => ⟨S1024x1, .f32⟩
  | .local _ .vmem, ⟨22, _⟩ => ⟨S1024x1, .f32⟩
  | .local _ .vmem, ⟨23, _⟩ => ⟨S512x128, .bf16⟩
  | .local _ .vmem, ⟨24, _⟩ => ⟨S1x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | _, _ => ⟨S10000x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_c_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_10 : Ref sig .tc := ⟨.hbm, 55, rfl⟩
abbrev main_call0_v0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_11 : Ref sig .tc := ⟨.hbm, 62, rfl⟩
abbrev main_call1_v0 : Ref sig .tc := ⟨.hbm, 63, rfl⟩
abbrev main_v40 : Ref sig .tc := ⟨.hbm, 64, rfl⟩
abbrev main_v41 : Ref sig .tc := ⟨.hbm, 65, rfl⟩
abbrev main_c_12 : Ref sig .tc := ⟨.hbm, 66, rfl⟩
abbrev main_call2_v0 : Ref sig .tc := ⟨.hbm, 67, rfl⟩
abbrev main_v42 : Ref sig .tc := ⟨.hbm, 68, rfl⟩
abbrev main_v43 : Ref sig .tc := ⟨.hbm, 69, rfl⟩
abbrev main_c_13 : Ref sig .tc := ⟨.hbm, 70, rfl⟩
abbrev main_call3_v0 : Ref sig .tc := ⟨.hbm, 71, rfl⟩
abbrev main_v44 : Ref sig .tc := ⟨.hbm, 72, rfl⟩
abbrev main_v45 : Ref sig .tc := ⟨.hbm, 73, rfl⟩
abbrev main_v46_0 : Ref sig .tc := ⟨.hbm, 74, rfl⟩
abbrev main_v46_1 : Ref sig .tc := ⟨.hbm, 75, rfl⟩
abbrev main_v47 : Ref sig .tc := ⟨.hbm, 76, rfl⟩
abbrev main_v48 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg6_1 : Ref sig .tc := ⟨.vmem, 26, rfl⟩
abbrev cc1_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨2, ![10, 2], ![false, false]⟩

def k0_mult1 (i : grid0.Coords) : BitVec 32 :=
  let arg1 : BitVec 32 := BitVec.ofNat 32 (i 1).val
  let c5120_i32 : BitVec 32 := 5120#32
  let v3 : BitVec 32 := Scalar.muli arg1 c5120_i32
  v3
def k0_off1 (i : grid0.Coords) : Fin 2 → Nat :=
  let arg1 : BitVec 32 := BitVec.ofNat 32 (i 1).val
  let c5120_i32 : BitVec 32 := 5120#32
  let v3 : BitVec 32 := Scalar.muli arg1 c5120_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10240x50 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x50 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S50x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S50x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev grid1 : Pipeline.Grid := ⟨2, ![10, 2], ![false, false]⟩

def k1_mult1 (i : grid1.Coords) : BitVec 32 :=
  let arg1 : BitVec 32 := BitVec.ofNat 32 (i 1).val
  let c5120_i32 : BitVec 32 := 5120#32
  let v3 : BitVec 32 := Scalar.muli arg1 c5120_i32
  v3
def k1_off1 (i : grid1.Coords) : Fin 2 → Nat :=
  let arg1 : BitVec 32 := BitVec.ofNat 32 (i 1).val
  let c5120_i32 : BitVec 32 := 5120#32
  let v3 : BitVec 32 := Scalar.muli arg1 c5120_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x5120 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S10240x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S512x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S_S10240x10240 : S_.BroadcastsInDim S10240x10240 (![] : Fin 0 → Fin S10240x10240.rank)
  bcast_S160000_S160000x1_0 : S160000.BroadcastsInDim S160000x1 (![0] : Fin 1 → Fin S160000x1.rank)
  concatenates_S160000x1_S160000x1_S160000x2_d1 : Shape.Concatenates [S160000x1, S160000x1] S160000x2 1
  bcast_S_S10240 : S_.BroadcastsInDim S10240 (![] : Fin 0 → Fin S10240.rank)
  shapeCasts_S10240_S10240x1 : S10240.ShapeCasts S10240x1
  pads_S10000x50_S10240x50_02400_000 : S10000x50.Pads (![0, 0] : Fin 2 → Nat) ![240, 0] ![0, 0] S10240x50
  h_S_ : 0 < S_.numel
  bitsLt_bf16_f32 : FTy.bits .bf16 < FTy.bits .f32
  shapeCasts_S512_S1x512 : S512.ShapeCasts S1x512
  pads_S512x121_S512x128_000_070 : S512x121.Pads (![0, 0] : Fin 2 → Nat) ![0, 7] ![0, 0] S512x128
  pads_S121_S128_070 : S121.Pads (![0] : Fin 1 → Nat) ![7] ![0] S128
  shapeCasts_S128_S1x128 : S128.ShapeCasts S1x128
  inb_S1024x50_S1024x50_0_0 : ∀ a, (![0, 0] : Fin 2 → Nat) a + S1024x50.size a ≤ S1024x50.size a
  h_S1024x50 : 0 < S1024x50.numel
  shapeCasts_S1024x50_S1024x50 : S1024x50.ShapeCasts S1024x50
  h_S5120x50 : 0 < S5120x50.numel
  shapeCasts_S5120x50_S5120x50 : S5120x50.ShapeCasts S5120x50
  inb_S1024x5120_S1024x5120_0_0 : ∀ a, (![0, 0] : Fin 2 → Nat) a + S1024x5120.size a ≤ S1024x5120.size a
  h_S1024x5120 : 0 < S1024x5120.numel
  shapeCasts_S1024x5120_S1024x5120 : S1024x5120.ShapeCasts S1024x5120
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x50 : S1024x1.Broadcasts S1024x50
  inb_S50x512_S50x512_0_0 : ∀ a, (![0, 0] : Fin 2 → Nat) a + S50x512.size a ≤ S50x512.size a
  h_S50x512 : 0 < S50x512.numel
  shapeCasts_S50x512_S50x512 : S50x512.ShapeCasts S50x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  shapeCasts_S1024x128_S1024x128 : S1024x128.ShapeCasts S1024x128
  h_S5120x128 : 0 < S5120x128.numel
  shapeCasts_S5120x128_S5120x128 : S5120x128.ShapeCasts S5120x128
  broadcasts_S1024x1_S1024x128 : S1024x1.Broadcasts S1024x128
  shapeCasts_S1024x512_S1024x512 : S1024x512.ShapeCasts S1024x512
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  slices_S10240x128_S10000x121_0_0 : S10240x128.Slices ![0, 0] S10000x121
  scatter_S10240x10240_S160000x2_S160000_n_01_01_1_wf : ScatterDims.WF S10240x10240 S160000x2 S160000 [] [0, 1] [0, 1] 1
  scatter_S10240_S160000x1_S160000_n_0_0_1_wf : ScatterDims.WF S10240 S160000x1 S160000 [] [0] [0] 1
  dot_S1024x5120_S5120x50_S1024x50_1_0_0_1_n_n_wf : DotDims.WF S1024x5120 S5120x50 S1024x50 [1] [0] [0] [1] [] []
  dot_S1024x50_S50x512_S1024x512_1_0_0_1_n_n_wf : DotDims.WF S1024x50 S50x512 S1024x512 [1] [0] [0] [1] [] []
  dot_S1024x512_S512x128_S1024x128_1_0_0_1_n_n_wf : DotDims.WF S1024x512 S512x128 S1024x128 [1] [0] [0] [1] [] []
  dot_S1024x5120_S5120x128_S1024x128_1_0_0_1_n_n_wf : DotDims.WF S1024x5120 S5120x128 S1024x128 [1] [0] [0] [1] [] []
  hrank0 : 0 < grid0.rank
  k0_mult1_dvd : ∀ i : grid0.Coords, 5120 ∣ (k0_mult1 i).toNat
  k0_off1_inb : ∀ i : grid0.Coords, ∀ a, (k0_off1 i) a + S5120x50.size a ≤ S10240x50.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x5120.size a ≤ S10240x10240.size a
  hwx0_0 : ∀ i : grid0.Coords, EltTy.bits .bf16 = 32 ∨ (Rect.block (s := S10240x10240) S1024x5120.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10240x50.size a ≤ S10240x50.size a
  hwx0_1 : ∀ i : grid0.Coords, EltTy.bits .bf16 = 32 ∨ (Rect.block (s := S10240x50) S10240x50.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x50.size a ≤ S10240x50.size a
  hwx0_2 : ∀ i : grid0.Coords, EltTy.bits .bf16 = 32 ∨ (Rect.block (s := S10240x50) S1024x50.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S10240x1.size a
  hwx0_3 : ∀ i : grid0.Coords, EltTy.bits .f32 = 32 ∨ (Rect.block (s := S10240x1) S1024x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S50x512.size a ≤ S50x512.size a
  hwx0_4 : ∀ i : grid0.Coords, EltTy.bits .bf16 = 32 ∨ (Rect.block (s := S50x512) S50x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S50x512.size a ≤ S50x512.size a
  hwx0_5 : ∀ i : grid0.Coords, EltTy.bits .bf16 = 32 ∨ (Rect.block (s := S50x512) S50x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S512x128.size a
  hwx0_7 : ∀ i : grid0.Coords, EltTy.bits .bf16 = 32 ∨ (Rect.block (s := S512x128) S512x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S10240x512.size a
  hwx0_8 : ∀ i : grid0.Coords, EltTy.bits .bf16 = 32 ∨ (Rect.block (s := S10240x512) S1024x512.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x128.size a ≤ S10240x128.size a
  hwx0_9 : ∀ i : grid0.Coords, EltTy.bits .bf16 = 32 ∨ (Rect.block (s := S10240x128) S1024x128.size (cc0_transform_9 i) (hinb0_9 i)).WholeWords (EltTy.packing .bf16)
  hrank1 : 0 < grid1.rank
  k1_mult1_dvd : ∀ i : grid1.Coords, 5120 ∣ (k1_mult1 i).toNat
  k1_off1_inb : ∀ i : grid1.Coords, ∀ a, (k1_off1 i) a + S5120x128.size a ≤ S10240x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x5120.size a ≤ S10240x10240.size a
  hwx1_0 : ∀ i : grid1.Coords, EltTy.bits .bf16 = 32 ∨ (Rect.block (s := S10240x10240) S1024x5120.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x128.size a ≤ S10240x128.size a
  hwx1_1 : ∀ i : grid1.Coords, EltTy.bits .bf16 = 32 ∨ (Rect.block (s := S10240x128) S10240x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S10240x512.size a
  hwx1_2 : ∀ i : grid1.Coords, EltTy.bits .bf16 = 32 ∨ (Rect.block (s := S10240x512) S1024x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S10240x1.size a
  hwx1_3 : ∀ i : grid1.Coords, EltTy.bits .f32 = 32 ∨ (Rect.block (s := S10240x1) S1024x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S512x128.size a
  hwx1_4 : ∀ i : grid1.Coords, EltTy.bits .bf16 = 32 ∨ (Rect.block (s := S512x128) S512x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x128.size a ≤ S10240x128.size a
  hwx1_6 : ∀ i : grid1.Coords, EltTy.bits .f32 = 32 ∨ (Rect.block (s := S10240x128) S1024x128.size (cc1_transform_6 i) (hinb1_6 i)).WholeWords (EltTy.packing .f32)

variable [Facts₀]

def scatter_S10240x10240_S160000x2_S160000_n_01_01_1 : ScatterDims S10240x10240 S160000x2 S160000 where
  updateWindowDims := []
  insertedWindowDims := [0, 1]
  scatterDimsToOperandDims := [0, 1]
  indexVectorDim := 1
  wf := scatter_S10240x10240_S160000x2_S160000_n_01_01_1_wf
def scatter_S10240_S160000x1_S160000_n_0_0_1 : ScatterDims S10240 S160000x1 S160000 where
  updateWindowDims := []
  insertedWindowDims := [0]
  scatterDimsToOperandDims := [0]
  indexVectorDim := 1
  wf := scatter_S10240_S160000x1_S160000_n_0_0_1_wf
def dot_S1024x5120_S5120x50_S1024x50_1_0_0_1_n_n : DotDims S1024x5120 S5120x50 S1024x50 where
  lhsContracting := [1]
  rhsContracting := [0]
  lhsNonContracting := [0]
  rhsNonContracting := [1]
  lhsBatch := []
  rhsBatch := []
  wf := dot_S1024x5120_S5120x50_S1024x50_1_0_0_1_n_n_wf
def dot_S1024x50_S50x512_S1024x512_1_0_0_1_n_n : DotDims S1024x50 S50x512 S1024x512 where
  lhsContracting := [1]
  rhsContracting := [0]
  lhsNonContracting := [0]
  rhsNonContracting := [1]
  lhsBatch := []
  rhsBatch := []
  wf := dot_S1024x50_S50x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x5120_S5120x128_S1024x128_1_0_0_1_n_n : DotDims S1024x5120 S5120x128 S1024x128 where
  lhsContracting := [1]
  rhsContracting := [0]
  lhsNonContracting := [0]
  rhsNonContracting := [1]
  lhsBatch := []
  rhsBatch := []
  wf := dot_S1024x5120_S5120x128_S1024x128_1_0_0_1_n_n_wf

abbrev win0_0 : Pipeline.Window sig grid0 :=
  Pipeline.Window.ofSpec (Memref.whole main_v20) S1024x5120.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S10240x50.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1024x50.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v37) S50x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S50x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v39) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v41) S512x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v46_0) S1024x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v46_1) S1024x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | ⟨_ + 10, h⟩ => absurd h (Nat.not_lt.2 (Nat.le_add_left _ _))

abbrev win1_0 : Pipeline.Window sig grid1 :=
  Pipeline.Window.ofSpec (Memref.whole main_v20) S1024x5120.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46_1) S10240x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46_0) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v43) S512x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S1024x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S10000x50 : Shape := ⟨2, ![10000, 50]⟩
abbrev S2x160000 : Shape := ⟨2, ![2, 160000]⟩
abbrev S50x512 : Shape := ⟨2, ![50, 512]⟩
abbrev S512 : Shape := ⟨1, ![512]⟩
abbrev S512x121 : Shape := ⟨2, ![512, 121]⟩
abbrev S121 : Shape := ⟨1, ![121]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x50 : Shape := ⟨2, ![160000, 50]⟩
abbrev S10000 : Shape := ⟨1, ![10000]⟩
abbrev S10000x1 : Shape := ⟨2, ![10000, 1]⟩
abbrev S10000x512 : Shape := ⟨2, ![10000, 512]⟩
abbrev S1x512 : Shape := ⟨2, ![1, 512]⟩
abbrev S160000x512 : Shape := ⟨2, ![160000, 512]⟩
abbrev S10000x121 : Shape := ⟨2, ![10000, 121]⟩
abbrev S1x121 : Shape := ⟨2, ![1, 121]⟩

abbrev nBuf : Space → Nat
  | .hbm => 77
  | .vmem => 0
  | .smem => 0
  | _ => 0

abbrev bufTy : (tb : Table) → Fin (tcTables nBuf tb) → BufTy
  | .hbm, ⟨0, _⟩ => ⟨S10000x50, .f32⟩
  | .hbm, ⟨1, _⟩ => ⟨S2x160000, .i32⟩
  | .hbm, ⟨2, _⟩ => ⟨S50x512, .f32⟩
  | .hbm, ⟨3, _⟩ => ⟨S50x512, .f32⟩
  | .hbm, ⟨4, _⟩ => ⟨S512, .f32⟩
  | .hbm, ⟨5, _⟩ => ⟨S512x121, .f32⟩
  | .hbm, ⟨6, _⟩ => ⟨S512x121, .f32⟩
  | .hbm, ⟨7, _⟩ => ⟨S121, .f32⟩
  | .hbm, ⟨8, _⟩ => ⟨S1x160000, .i32⟩
  | .hbm, ⟨9, _⟩ => ⟨S160000, .i32⟩
  | .hbm, ⟨10, _⟩ => ⟨S1x160000, .i32⟩
  | .hbm, ⟨11, _⟩ => ⟨S160000, .i32⟩
  | .hbm, ⟨12, _⟩ => ⟨S_, .i32⟩
  | .hbm, ⟨13, _⟩ => ⟨S160000, .i32⟩
  | .hbm, ⟨14, _⟩ => ⟨S160000, .i1⟩
  | .hbm, ⟨15, _⟩ => ⟨S_, .i32⟩
  | .hbm, ⟨16, _⟩ => ⟨S160000, .i32⟩
  | .hbm, ⟨17, _⟩ => ⟨S160000, .i32⟩
  | .hbm, ⟨18, _⟩ => ⟨S160000, .i32⟩
  | .hbm, ⟨19, _⟩ => ⟨S160000x1, .i32⟩
  | .hbm, ⟨20, _⟩ => ⟨S160000x50, .f32⟩
  | .hbm, ⟨21, _⟩ => ⟨S_, .f32⟩
  | .hbm, ⟨22, _⟩ => ⟨S10000x50, .f32⟩
  | .hbm, ⟨23, _⟩ => ⟨S160000x1, .i32⟩
  | .hbm, ⟨24, _⟩ => ⟨S10000x50, .f32⟩
  | .hbm, ⟨25, _⟩ => ⟨S_, .f32⟩
  | .hbm, ⟨26, _⟩ => ⟨S160000, .f32⟩
  | .hbm, ⟨27, _⟩ => ⟨S_, .f32⟩
  | .hbm, ⟨28, _⟩ => ⟨S10000, .f32⟩
  | .hbm, ⟨29, _⟩ => ⟨S160000x1, .i32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x50, .f32⟩
  | .hbm, ⟨36, _⟩ => ⟨S10000x50, .f32⟩
  | .hbm, ⟨37, _⟩ => ⟨S10000x512, .f32⟩
  | .hbm, ⟨38, _⟩ => ⟨S10000x512, .f32⟩
  | .hbm, ⟨39, _⟩ => ⟨S10000x512, .f32⟩
  | .hbm, ⟨40, _⟩ => ⟨S1x512, .f32⟩
  | .hbm, ⟨41, _⟩ => ⟨S10000x512, .f32⟩
  | .hbm, ⟨42, _⟩ => ⟨S10000x512, .f32⟩
  | .hbm, ⟨43, _⟩ => ⟨S_, .f32⟩
  | .hbm, ⟨44, _⟩ => ⟨S10000x512, .f32⟩
  | .hbm, ⟨45, _⟩ => ⟨S10000x512, .f32⟩
  | .hbm, ⟨46, _⟩ => ⟨S_, .i32⟩
  | .hbm, ⟨47, _⟩ => ⟨S160000, .i32⟩
  | .hbm, ⟨48, _⟩ => ⟨S160000, .i1⟩
  | .hbm, ⟨49, _⟩ => ⟨S_, .i32⟩
  | .hbm, ⟨50, _⟩ => ⟨S160000, .i32⟩
  | .hbm, ⟨51, _⟩ => ⟨S160000, .i32⟩
  | .hbm, ⟨52, _⟩ => ⟨S160000, .i32⟩
  | .hbm, ⟨53, _⟩ => ⟨S160000x1, .i32⟩
  | .hbm, ⟨54, _⟩ => ⟨S160000x512, .f32⟩
  | .hbm, ⟨55, _⟩ => ⟨S_, .f32⟩
  | .hbm, ⟨56, _⟩ => ⟨S10000x512, .f32⟩
  | .hbm, ⟨57, _⟩ => ⟨S160000x1, .i32⟩
  | .hbm, ⟨58, _⟩ => ⟨S10000x512, .f32⟩
  | .hbm, ⟨59, _⟩ => ⟨S_, .f32⟩
  | .hbm, ⟨60, _⟩ => ⟨S160000, .f32⟩
  | .hbm, ⟨61, _⟩ => ⟨S_, .f32⟩
  | .hbm, ⟨62, _⟩ => ⟨S10000, .f32⟩
  | .hbm, ⟨63, _⟩ => ⟨S160000x1, .i32⟩
  | .hbm, ⟨64, _⟩ => ⟨S10000, .f32⟩
  | .hbm, ⟨65, _⟩ => ⟨S_, .f32⟩
  | .hbm, ⟨66, _⟩ => ⟨S10000, .f32⟩
  | .hbm, ⟨67, _⟩ => ⟨S10000, .f32⟩
  | .hbm, ⟨68, _⟩ => ⟨S10000x1, .f32⟩
  | .hbm, ⟨69, _⟩ => ⟨S10000x512, .f32⟩
  | .hbm, ⟨70, _⟩ => ⟨S10000x512, .f32⟩
  | .hbm, ⟨71, _⟩ => ⟨S10000x121, .f32⟩
  | .hbm, ⟨72, _⟩ => ⟨S10000x121, .f32⟩
  | .hbm, ⟨73, _⟩ => ⟨S10000x121, .f32⟩
  | .hbm, ⟨74, _⟩ => ⟨S1x121, .f32⟩
  | .hbm, ⟨75, _⟩ => ⟨S10000x121, .f32⟩
  | .hbm, ⟨76, _⟩ => ⟨S10000x121, .f32⟩
  | _, _ => ⟨S10000x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S10000x50 : S_.BroadcastsInDim S10000x50 (![] : Fin 0 → Fin S10000x50.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x50_0_1 : S10000x1.BroadcastsInDim S10000x50 (![0, 1] : Fin 2 → Fin S10000x50.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  bcast_S10000x1_S10000x512_0_1 : S10000x1.BroadcastsInDim S10000x512 (![0, 1] : Fin 2 → Fin S10000x512.rank)
  bcast_S121_S1x121_1 : S121.BroadcastsInDim S1x121 (![1] : Fin 1 → Fin S1x121.rank)
  bcast_S1x121_S10000x121_0_1 : S1x121.BroadcastsInDim S10000x121 (![0, 1] : Fin 2 → Fin S10000x121.rank)
  gather_S10000x50_S160000x1_S160000x50_1_0_n_n_0_1_150_wf : GatherDims.WF S10000x50 S160000x1 S160000x50 [1] [0] [] [0] [] 1 ![1, 50]
  scatter_S10000x50_S160000x1_S160000x50_1_0_0_1_wf : ScatterDims.WF S10000x50 S160000x1 S160000x50 [1] [0] [0] 1
  scatter_S10000_S160000x1_S160000_n_0_0_1_wf : ScatterDims.WF S10000 S160000x1 S160000 [] [0] [0] 1
  dot_S10000x50_S50x512_S10000x512_1_0_0_1_n_n_wf : DotDims.WF S10000x50 S50x512 S10000x512 [1] [0] [0] [1] [] []
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  dot_S10000x512_S512x121_S10000x121_1_0_0_1_n_n_wf : DotDims.WF S10000x512 S512x121 S10000x121 [1] [0] [0] [1] [] []

variable [Facts₀]

def gather_S10000x50_S160000x1_S160000x50_1_0_n_n_0_1_150 : GatherDims S10000x50 S160000x1 S160000x50 where
  offsetDims := [1]
  collapsedSliceDims := [0]
  operandBatchingDims := []
  startIndicesBatchingDims := []
  startIndexMap := [0]
  indexVectorDim := 1
  sliceSizes := ![1, 50]
  wf := gather_S10000x50_S160000x1_S160000x50_1_0_n_n_0_1_150_wf
def scatter_S10000x50_S160000x1_S160000x50_1_0_0_1 : ScatterDims S10000x50 S160000x1 S160000x50 where
  updateWindowDims := [1]
  insertedWindowDims := [0]
  scatterDimsToOperandDims := [0]
  indexVectorDim := 1
  wf := scatter_S10000x50_S160000x1_S160000x50_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S10000x50_S50x512_S10000x512_1_0_0_1_n_n : DotDims S10000x50 S50x512 S10000x512 where
  lhsContracting := [1]
  rhsContracting := [0]
  lhsNonContracting := [0]
  rhsNonContracting := [1]
  lhsBatch := []
  rhsBatch := []
  wf := dot_S10000x50_S50x512_S10000x512_1_0_0_1_n_n_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S10000x512_S512x121_S10000x121_1_0_0_1_n_n : DotDims S10000x512 S512x121 S10000x121 where
  lhsContracting := [1]
  rhsContracting := [0]
  lhsNonContracting := [0]
  rhsNonContracting := [1]
  lhsBatch := []
  rhsBatch := []
  wf := dot_S10000x512_S512x121_S10000x121_1_0_0_1_n_n_wf

class Facts : Prop extends Facts₀ where

variable [Facts]
-- ==== Proof.KSpec.lean ====
import proofs.«419373_j70497593197182_3_alg».proof.Proof.Gen.KernelIdeal.Skeleton
import Idealize.ShloMosaic.Lib.ValueIdx

noncomputable section

namespace Cert.KernelIdeal.KSpec

open Idealize.ShloMosaic Idealize.ShloMosaic.ValueIdx
open Cert.KernelIdeal Cert.KernelIdeal.Gen

variable {F : FTy → Type} [FloatOps F]

def rowOf (mb : Fin 10) (r : Fin 1024) : Fin 10240 := ⟨1024 * mb.val + r.val, by omega⟩

def redOf (kb : Fin 2) (j : Fin 5120) : Fin 10240 := ⟨5120 * kb.val + j.val, by omega⟩

def blockOf (i : Fin 10240) : Fin 10 := ⟨i.val / 1024, by omega⟩
def inBlock (i : Fin 10240) : Fin 1024 := ⟨i.val % 1024, Nat.mod_lt _ (by decide)⟩

theorem rowOf_blockOf (i : Fin 10240) : rowOf (blockOf i) (inBlock i) = i :=
  Fin.ext (Nat.div_add_mod i.val 1024)

/-- Block `(mb, kb)` of a 10240 x 10240 matrix: the rows of row block `mb`, the columns of reduction half `kb`. -/
def blkA (A : FVec F S10240x10240 .bf16) (mb : Fin 10) (kb : Fin 2) : FVec F S1024x5120 .bf16 :=
  fun y => A (ix2 (rowOf mb ⟨(y 0).val, idx2_lt0 y⟩) (redOf kb ⟨(y 1).val, idx2_lt1 y⟩))

def half50 (X : FVec F S10240x50 .bf16) (kb : Fin 2) : FVec F S5120x50 .bf16 :=
  fun y => X (ix2 (redOf kb ⟨(y 0).val, idx2_lt0 y⟩) ⟨(y 1).val, idx2_lt1 y⟩)

def half128 (X : FVec F S10240x128 .bf16) (kb : Fin 2) : FVec F S5120x128 .bf16 :=
  fun y => X (ix2 (redOf kb ⟨(y 0).val, idx2_lt0 y⟩) ⟨(y 1).val, idx2_lt1 y⟩)

def rows50 (X : FVec F S10240x50 .bf16) (mb : Fin 10) : FVec F S1024x50 .bf16 :=
  fun y => X (ix2 (rowOf mb ⟨(y 0).val, idx2_lt0 y⟩) ⟨(y 1).val, idx2_lt1 y⟩)
def rows1 (D : FVec F S10240x1 .f32) (mb : Fin 10) : FVec F S1024x1 .f32 :=
  fun y => D (ix2 (rowOf mb ⟨(y 0).val, idx2_lt0 y⟩) ⟨(y 1).val, idx2_lt1 y⟩)
def rows512 (H : FVec F S10240x512 .bf16) (mb : Fin 10) : FVec F S1024x512 .bf16 :=
  fun y => H (ix2 (rowOf mb ⟨(y 0).val, idx2_lt0 y⟩) ⟨(y 1).val, idx2_lt1 y⟩)

/-- One row block of layer 1 after both reduction halves: zero plus the two partial products. -/
def acc0 (a0 a1 : FVec F S1024x5120 .bf16) (x0 x1 : FVec F S5120x50 .bf16) : FVec F S1024x50 .f32 :=
  k0_pay2 x1 (k0_pay2 x0 (k0_pay1 (F := F)) a0) a1

def h1b (a0 a1 : FVec F S1024x5120 .bf16) (x0 x1 : FVec F S5120x50 .bf16) (dinv : FVec F S1024x1 .f32)
    (Wl : FVec F S50x512 .bf16) (xs : FVec F S1024x50 .bf16) (Wr : FVec F S50x512 .bf16) (b : FVec F S1x512 .f32) :
    FVec F S1024x512 .bf16 :=
  k0_pay3 (acc0 a0 a1 x0 x1) dinv Wl xs Wr b

def pb (a0 a1 : FVec F S1024x5120 .bf16) (x0 x1 : FVec F S5120x50 .bf16) (dinv : FVec F S1024x1 .f32)
    (Wl : FVec F S50x512 .bf16) (xs : FVec F S1024x50 .bf16) (Wr : FVec F S50x512 .bf16) (b : FVec F S1x512 .f32)
    (Wp : FVec F S512x128 .bf16) : FVec F S1024x128 .bf16 :=
  k0_pay4 (acc0 a0 a1 x0 x1) dinv Wl xs Wr b Wp

/-- Layer 1's hidden activations as one function of the whole arrays: row `i` is row `i % 1024` of row block `i /
    1024`. -/
def G_h1 (A : FVec F S10240x10240 .bf16) (X : FVec F S10240x50 .bf16) (D : FVec F S10240x1 .f32)
    (Wl Wr : FVec F S50x512 .bf16) (b : FVec F S1x512 .f32) : FVec F S10240x512 .bf16 :=
  fun i =>
    let mb := blockOf ⟨(i 0).val, idx2_lt0 i⟩
    h1b (blkA A mb 0) (blkA A mb 1) (half50 X 0) (half50 X 1) (rows1 D mb) Wl (rows50 X mb) Wr b
      (ix2 (inBlock ⟨(i 0).val, idx2_lt0 i⟩) ⟨(i 1).val, idx2_lt1 i⟩)

def G_P (A : FVec F S10240x10240 .bf16) (X : FVec F S10240x50 .bf16) (D : FVec F S10240x1 .f32)
    (Wl Wr : FVec F S50x512 .bf16) (b : FVec F S1x512 .f32) (Wp : FVec F S512x128 .bf16) : FVec F S10240x128 .bf16 :=
  fun i =>
    let mb := blockOf ⟨(i 0).val, idx2_lt0 i⟩
    pb (blkA A mb 0) (blkA A mb 1) (half50 X 0) (half50 X 1) (rows1 D mb) Wl (rows50 X mb) Wr b Wp
      (ix2 (inBlock ⟨(i 0).val, idx2_lt0 i⟩) ⟨(i 1).val, idx2_lt1 i⟩)

def acc1 (a0 a1 : FVec F S1024x5120 .bf16) (p0 p1 : FVec F S5120x128 .bf16) : FVec F S1024x128 .f32 :=
  k1_pay2 p1 (k1_pay2 p0 (k1_pay1 (F := F)) a0) a1

def ob (a0 a1 : FVec F S1024x5120 .bf16) (p0 p1 : FVec F S5120x128 .bf16) (dinv : FVec F S1024x1 .f32)
    (hs : FVec F S1024x512 .bf16) (Wr : FVec F S512x128 .bf16) (b : FVec F S1x128 .f32) : FVec F S1024x128 .f32 :=
  k1_pay3 (acc1 a0 a1 p0 p1) dinv hs Wr b

/-- Layer 2's output as one function of the whole arrays. -/
def G_out (A : FVec F S10240x10240 .bf16) (Pm : FVec F S10240x128 .bf16) (H : FVec F S10240x512 .bf16)
    (D : FVec F S10240x1 .f32) (Wr : FVec F S512x128 .bf16) (b : FVec F S1x128 .f32) : FVec F S10240x128 .f32 :=
  fun i =>
    let mb := blockOf ⟨(i 0).val, idx2_lt0 i⟩
    ob (blkA A mb 0) (blkA A mb 1) (half128 Pm 0) (half128 Pm 1) (rows1 D mb) (rows512 H mb) Wr b
      (ix2 (inBlock ⟨(i 0).val, idx2_lt0 i⟩) ⟨(i 1).val, idx2_lt1 i⟩)

end Cert.KernelIdeal.KSpec

end
-- ==== Proof.KI.Body0First.lean ====
import proofs.«419373_j70497593197182_3_alg».proof.Proof.Gen.KernelIdeal.Skeleton
import proofs.«419373_j70497593197182_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev isFirstHalf (i : grid0.Coords) : Prop :=
  (Scalar.cmpi .ne (Scalar.extui (Scalar.cmpi .eq (BitVec.ofNat 32 (i 1).val) 0#32)) 0#32) = 1#1

abbrev isLastHalf (i : grid0.Coords) : Prop := k0_cond2 i = 1#1

theorem isFirstHalf_iff : ∀ t : Fin cfg0.N, isFirstHalf (grid0.coords t) ↔ t.val % 2 = 0 :=
  (by decide +kernel : ∀ t : Fin grid0.N, isFirstHalf (grid0.coords t) ↔ t.val % 2 = 0)

theorem isLastHalf_iff : ∀ t : Fin cfg0.N, isLastHalf (grid0.coords t) ↔ t.val % 2 = 1 :=
  (by decide +kernel : ∀ t : Fin grid0.N, isLastHalf (grid0.coords t) ↔ t.val % 2 = 1)

theorem zeroOff2 : (![0, 0] : Fin 2 → Nat) = fun _ => 0 := funext fun a => by fin_cases a <;> rfl

def featHalf (i : grid0.Coords) (x : Vec F S10240x50 .bf16) : Vec F S5120x50 .bf16 :=
  View.ld x (Rect.unit (s := S10240x50) (k0_off1 i) S5120x50.size (k0_off1_inb i))

variable (c : Dev nD) (i : grid0.Coords)
    (arg2 : Memref sig .tc .vmem S1024x5120 .bf16) (harg2 : arg2.IsWhole) (arg3 : Memref sig .tc .vmem S10240x50 .bf16) (harg3 : arg3.IsWhole)
    (arg4 : Memref sig .tc .vmem S1024x50 .bf16) (harg4 : arg4.IsWhole) (arg5 : Memref sig .tc .vmem S1024x1 .f32) (harg5 : arg5.IsWhole)
    (arg6 : Memref sig .tc .vmem S50x512 .bf16) (harg6 : arg6.IsWhole) (arg7 : Memref sig .tc .vmem S50x512 .bf16) (harg7 : arg7.IsWhole)
    (arg8 : Memref sig .tc .vmem S1x512 .f32) (harg8 : arg8.IsWhole) (arg9 : Memref sig .tc .vmem S512x128 .bf16) (harg9 : arg9.IsWhole)
    (arg10 : Memref sig .tc .vmem S1024x512 .bf16) (harg10 : arg10.IsWhole) (arg11 : Memref sig .tc .vmem S1024x128 .bf16) (harg11 : arg11.IsWhole)
    (arg12 : Memref sig .tc .vmem S1024x50 .f32) (harg12 : arg12.IsWhole)
    (hc0 : isFirstHalf i) (hc1 : ¬isLastHalf i)
    (a : Vec F S1024x5120 .bf16) (x : Vec F S10240x50 .bf16)
include hc0 hc1

set_option maxHeartbeats 1000000 in
noncomputable def runFirstHalf :
    { LS : List (View.Piece (Elt F) S1024x50 .f32) //
      ∀ (E : Set ℕ) (K : PUnit → sProp 𝕄),
        iprop(owns (c : Thread nD τ) arg2 fullShare a ∗ owns (c : Thread nD τ) arg3 fullShare x ∗ (∃ d, owns (c : Thread nD τ) arg12 fullShare d)
            ∗ (iprop(owns (c : Thread nD τ) arg2 fullShare a ∗ owns (c : Thread nD τ) arg3 fullShare x
                ∗ (∃ f, arg12.view.loc (c : Thread nD τ) ↦[arg12.view.set]{fullShare} arg12.view.writes (Elt F) f LS)) -∗ K ⟨⟩))
          ⊢ wp frame (wpE (defs₀ (F := F)) Variants.none c none) E (cc0__layer1_kernel i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__layer1_kernel_eq_skeleton]; unfold cc0__layer1_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

theorem runFirstHalf_cover (y : S1024x50.Idx) :
    ∃ pc ∈ (runFirstHalf c i arg2 harg2 arg3 harg3 arg4 harg4 arg5 harg5 arg6 harg6 arg7 harg7 arg8 harg8 arg9 harg9 arg10 harg10 arg11 harg11 arg12 harg12 hc0 hc1 a x).1, y ∈ pc.1.set :=
  View.cover_of_tiledL (runFirstHalf c i arg2 harg2 arg3 harg3 arg4 harg4 arg5 harg5 arg6 harg6 arg7 harg7 arg8 harg8 arg9 harg9 arg10 harg10 arg11 harg11 arg12 harg12 hc0 hc1 a x).1 S1024x50.size (by sl_kernel_rfl) y

theorem runFirstHalf_acc :
    View.canon (runFirstHalf c i arg2 harg2 arg3 harg3 arg4 harg4 arg5 harg5 arg6 harg6 arg7 harg7 arg8 harg8 arg9 harg9 arg10 harg10 arg11 harg11 arg12 harg12 hc0 hc1 a x).1 = k0_pay2 (featHalf i x) (k0_pay1 (F := F)) a := by
  unfold runFirstHalf; dsimp only; sl_unfold_run_names
  rw [View.canon_cons_unit_zero (S := S1024x50) zeroOff2, View.readCov_unit_zero (S := S1024x50) _ zeroOff2]
  simp only [View.readAt_eq_ld, Memref.IsWhole.read_unread, View.ld_unit_zero (S := S1024x5120) zeroOff2]
  rfl

/-- At a first-half point the accumulator ends at zero plus the count block times the point's half of the resident
    rows. -/
theorem firstHalf_body (E : Set ℕ) (K : PUnit → sProp 𝕄) :
    iprop(owns (c : Thread nD τ) arg2 fullShare a ∗ owns (c : Thread nD τ) arg3 fullShare x ∗ (∃ d, owns (c : Thread nD τ) arg12 fullShare d)
        ∗ (iprop(owns (c : Thread nD τ) arg2 fullShare a ∗ owns (c : Thread nD τ) arg3 fullShare x
            ∗ owns (c : Thread nD τ) arg12 fullShare (k0_pay2 (featHalf i x) (k0_pay1 (F := F)) a)) -∗ K ⟨⟩))
      ⊢ wp frame (wpE (defs₀ (F := F)) Variants.none c none) E (cc0__layer1_kernel i arg2 harg2 arg3 harg3 arg4 harg4 arg5 harg5 arg6 harg6 arg7 harg7 arg8 harg8 arg9 harg9 arg10 harg10 arg11 harg11 arg12 harg12) K := by
  iintro ⟨H2, H3, HS, Hk⟩
  iapply ((runFirstHalf c i arg2 harg2 arg3 harg3 arg4 harg4 arg5 harg5 arg6 harg6 arg7 harg7 arg8 harg8 arg9 harg9 arg10 harg10 arg11 harg11 arg12 harg12 hc0 hc1 a x).2 E K)
  iframe H2 H3 HS
  iintro ⟨H2, H3, ⟨%f, HS⟩⟩
  iapply Hk
  iframe H2 H3
  unfold owns; iexists _; isplitr
  swap; · iexact HS
  ipureintro
  rw [View.read_writes_eq_canon _ _ _ (runFirstHalf_cover c i arg2 harg2 arg3 harg3 arg4 harg4 arg5 harg5 arg6 harg6 arg7 harg7 arg8 harg8 arg9 harg9 arg10 harg10 arg11 harg11 arg12 harg12 hc0 hc1 a x)]
  exact runFirstHalf_acc c i arg2 harg2 arg3 harg3 arg4 harg4 arg5 harg5 arg6 harg6 arg7 harg7 arg8 harg8 arg9 harg9 arg10 harg10 arg11 harg11 arg12 harg12 hc0 hc1 a x

end Cert.KernelIdeal.Hand

end
-- ==== Proof.KI.Body0Last.lean ====
import proofs.«419373_j70497593197182_3_alg».proof.Proof.KI.Body0First

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
    (arg2 : Memref sig .tc .vmem S1024x5120 .bf16) (harg2 : arg2.IsWhole) (arg3 : Memref sig .tc .vmem S10240x50 .bf16) (harg3 : arg3.IsWhole)
    (arg4 : Memref sig .tc .vmem S1024x50 .bf16) (harg4 : arg4.IsWhole) (arg5 : Memref sig .tc .vmem S1024x1 .f32) (harg5 : arg5.IsWhole)
    (arg6 : Memref sig .tc .vmem S50x512 .bf16) (harg6 : arg6.IsWhole) (arg7 : Memref sig .tc .vmem S50x512 .bf16) (harg7 : arg7.IsWhole)
    (arg8 : Memref sig .tc .vmem S1x512 .f32) (harg8 : arg8.IsWhole) (arg9 : Memref sig .tc .vmem S512x128 .bf16) (harg9 : arg9.IsWhole)
    (arg10 : Memref sig .tc .vmem S1024x512 .bf16) (harg10 : arg10.IsWhole) (arg11 : Memref sig .tc .vmem S1024x128 .bf16) (harg11 : arg11.IsWhole)
    (arg12 : Memref sig .tc .vmem S1024x50 .f32) (harg12 : arg12.IsWhole)
    (hc0 : ¬isFirstHalf i) (hc1 : isLastHalf i)
    (a : Vec F S1024x5120 .bf16) (x : Vec F S10240x50 .bf16) (xr : Vec F S1024x50 .bf16) (dv : Vec F S1024x1 .f32)
    (wl : Vec F S50x512 .bf16) (wr : Vec F S50x512 .bf16) (b : Vec F S1x512 .f32) (wq : Vec F S512x128 .bf16)
    (acc : Vec F S1024x50 .f32)
include hc0 hc1

set_option maxHeartbeats 2000000 in
noncomputable def runLastHalf :
    Σ' (LH : List (View.Piece (Elt F) S1024x512 .bf16)) (LP : List (View.Piece (Elt F) S1024x128 .bf16)),
    { LS : List (View.Piece (Elt F) S1024x50 .f32) //
      ∀ (E : Set ℕ) (K : PUnit → sProp 𝕄),
        iprop(owns (c : Thread nD τ) arg2 fullShare a ∗ owns (c : Thread nD τ) arg3 fullShare x ∗ owns (c : Thread nD τ) arg4 fullShare xr
            ∗ owns (c : Thread nD τ) arg5 fullShare dv ∗ owns (c : Thread nD τ) arg6 fullShare wl ∗ owns (c : Thread nD τ) arg7 fullShare wr
            ∗ owns (c : Thread nD τ) arg8 fullShare b ∗ owns (c : Thread nD τ) arg9 fullShare wq
            ∗ (∃ d, owns (c : Thread nD τ) arg10 fullShare d) ∗ (∃ d, owns (c : Thread nD τ) arg11 fullShare d)
            ∗ owns (c : Thread nD τ) arg12 fullShare acc
            ∗ (iprop(owns (c : Thread nD τ) arg2 fullShare a ∗ owns (c : Thread nD τ) arg3 fullShare x ∗ owns (c : Thread nD τ) arg4 fullShare xr
                ∗ owns (c : Thread nD τ) arg5 fullShare dv ∗ owns (c : Thread nD τ) arg6 fullShare wl ∗ owns (c : Thread nD τ) arg7 fullShare wr
                ∗ owns (c : Thread nD τ) arg8 fullShare b ∗ owns (c : Thread nD τ) arg9 fullShare wq
                ∗ (∃ f, arg10.view.loc (c : Thread nD τ) ↦[arg10.view.set]{fullShare} arg10.view.writes (Elt F) f LH)
                ∗ (∃ f, arg11.view.loc (c : Thread nD τ) ↦[arg11.view.set]{fullShare} arg11.view.writes (Elt F) f LP)
                ∗ (∃ f, arg12.view.loc (c : Thread nD τ) ↦[arg12.view.set]{fullShare} arg12.view.writes (Elt F) f LS)) -∗ K ⟨⟩))
          ⊢ wp frame (wpE (defs₀ (F := F)) Variants.none c none) E (cc0__layer1_kernel i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__layer1_kernel_eq_skeleton]; unfold cc0__layer1_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩,
      ⟨%d10, %f10, -, H10⟩, ⟨%d11, %f11, -, H11⟩, ⟨%fs, %hfs, HS⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9
    obtain rfl := harg12.eq_unread hfs
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    iexists _; iexact HS

theorem runLastHalf_cover_hid (y : S1024x512.Idx) :
    ∃ pc ∈ (runLastHalf c i arg2 harg2 arg3 harg3 arg4 harg4 arg5 harg5 arg6 harg6 arg7 harg7 arg8 harg8 arg9 harg9 arg10 harg10 arg11 harg11 arg12 harg12 hc0 hc1 a x xr dv wl wr b wq acc).1, y ∈ pc.1.set :=
  View.cover_of_tiledL (runLastHalf c i arg2 harg2 arg3 harg3 arg4 harg4 arg5 harg5 arg6 harg6 arg7 harg7 arg8 harg8 arg9 harg9 arg10 harg10 arg11 harg11 arg12 harg12 hc0 hc1 a x xr dv wl wr b wq acc).1 S1024x512.size (by sl_kernel_rfl) y

theorem runLastHalf_cover_proj (y : S1024x128.Idx) :
    ∃ pc ∈ (runLastHalf c i arg2 harg2 arg3 harg3 arg4 harg4 arg5 harg5 arg6 harg6 arg7 harg7 arg8 harg8 arg9 harg9 arg10 harg10 arg11 harg11 arg12 harg12 hc0 hc1 a x xr dv wl wr b wq acc).2.1, y ∈ pc.1.set :=
  View.cover_of_tiledL (runLastHalf c i arg2 harg2 arg3 harg3 arg4 harg4 arg5 harg5 arg6 harg6 arg7 harg7 arg8 harg8 arg9 harg9 arg10 harg10 arg11 harg11 arg12 harg12 hc0 hc1 a x xr dv wl wr b wq acc).2.1 S1024x128.size (by sl_kernel_rfl) y

theorem runLastHalf_cover_acc (y : S1024x50.Idx) :
    ∃ pc ∈ (runLastHalf c i arg2 harg2 arg3 harg3 arg4 harg4 arg5 harg5 arg6 harg6 arg7 harg7 arg8 harg8 arg9 harg9 arg10 harg10 arg11 harg11 arg12 harg12 hc0 hc1 a x xr dv wl wr b wq acc).2.2.1, y ∈ pc.1.set :=
  View.cover_of_tiledL (runLastHalf c i arg2 harg2 arg3 harg3 arg4 harg4 arg5 harg5 arg6 harg6 arg7 harg7 arg8 harg8 arg9 harg9 arg10 harg10 arg11 harg11 arg12 harg12 hc0 hc1 a x xr dv wl wr b wq acc).2.2.1 S1024x50.size (by sl_kernel_rfl) y

theorem runLastHalf_acc :
    View.canon (runLastHalf c i arg2 harg2 arg3 harg3 arg4 harg4 arg5 harg5 arg6 harg6 arg7 harg7 arg8 harg8 arg9 harg9 arg10 harg10 arg11 harg11 arg12 harg12 hc0 hc1 a x xr dv wl wr b wq acc).2.2.1 = k0_pay2 (featHalf i x) acc a := by
  unfold runLastHalf; dsimp only; sl_unfold_run_names
  rw [View.canon_unit_zero (S := S1024x50) zeroOff2]
  simp only [View.readAt_eq_ld, Memref.IsWhole.read_unread, View.ld_unit_zero (S := S1024x5120) zeroOff2, View.ld_unit_zero (S := S1024x50) zeroOff2]
  rfl

theorem runLastHalf_hid :
    View.canon (runLastHalf c i arg2 harg2 arg3 harg3 arg4 harg4 arg5 harg5 arg6 harg6 arg7 harg7 arg8 harg8 arg9 harg9 arg10 harg10 arg11 harg11 arg12 harg12 hc0 hc1 a x xr dv wl wr b wq acc).1 = k0_pay3 (k0_pay2 (featHalf i x) acc a) dv wl xr wr b := by
  unfold runLastHalf; dsimp only; sl_unfold_run_names
  rw [View.canon_unit_zero (S := S1024x512) zeroOff2]
  simp only [View.readCov_unit_zero (S := S1024x50) _ zeroOff2, View.readAt_eq_ld, Memref.IsWhole.read_unread,
    View.ld_unit_zero (S := S1024x5120) zeroOff2, View.ld_unit_zero (S := S1024x50) zeroOff2, View.ld_unit_zero (S := S1024x1) zeroOff2,
    View.ld_unit_zero (S := S50x512) zeroOff2, View.ld_unit_zero (S := S1x512) zeroOff2]
  rfl

theorem runLastHalf_proj :
    View.canon (runLastHalf c i arg2 harg2 arg3 harg3 arg4 harg4 arg5 harg5 arg6 harg6 arg7 harg7 arg8 harg8 arg9 harg9 arg10 harg10 arg11 harg11 arg12 harg12 hc0 hc1 a x xr dv wl wr b wq acc).2.1 = k0_pay4 (k0_pay2 (featHalf i x) acc a) dv wl xr wr b wq := by
  unfold runLastHalf; dsimp only; sl_unfold_run_names
  rw [View.canon_unit_zero (S := S1024x128) zeroOff2]
  simp only [View.readCov_unit_zero (S := S1024x50) _ zeroOff2, View.readAt_eq_ld, Memref.IsWhole.read_unread,
    View.ld_unit_zero (S := S1024x5120) zeroOff2, View.ld_unit_zero (S := S1024x50) zeroOff2, View.ld_unit_zero (S := S1024x1) zeroOff2,
    View.ld_unit_zero (S := S50x512) zeroOff2, View.ld_unit_zero (S := S1x512) zeroOff2, View.ld_unit_zero (S := S512x128) zeroOff2]
  rfl

/-- At a last-half point the accumulator gains the second partial product; the two result blocks are its epilogue and
    that epilogue projected. -/
theorem lastHalf_body (E : Set ℕ) (K : PUnit → sProp 𝕄) :
    iprop(owns (c : Thread nD τ) arg2 fullShare a ∗ owns (c : Thread nD τ) arg3 fullShare x ∗ owns (c : Thread nD τ) arg4 fullShare xr
        ∗ owns (c : Thread nD τ) arg5 fullShare dv ∗ owns (c : Thread nD τ) arg6 fullShare wl ∗ owns (c : Thread nD τ) arg7 fullShare wr
        ∗ owns (c : Thread nD τ) arg8 fullShare b ∗ owns (c : Thread nD τ) arg9 fullShare wq
        ∗ (∃ d, owns (c : Thread nD τ) arg10 fullShare d) ∗ (∃ d, owns (c : Thread nD τ) arg11 fullShare d)
        ∗ owns (c : Thread nD τ) arg12 fullShare acc
        ∗ (iprop(owns (c : Thread nD τ) arg2 fullShare a ∗ owns (c : Thread nD τ) arg3 fullShare x ∗ owns (c : Thread nD τ) arg4 fullShare xr
            ∗ owns (c : Thread nD τ) arg5 fullShare dv ∗ owns (c : Thread nD τ) arg6 fullShare wl ∗ owns (c : Thread nD τ) arg7 fullShare wr
            ∗ owns (c : Thread nD τ) arg8 fullShare b ∗ owns (c : Thread nD τ) arg9 fullShare wq
            ∗ owns (c : Thread nD τ) arg10 fullShare (k0_pay3 (k0_pay2 (featHalf i x) acc a) dv wl xr wr b)
            ∗ owns (c : Thread nD τ) arg11 fullShare (k0_pay4 (k0_pay2 (featHalf i x) acc a) dv wl xr wr b wq)
            ∗ owns (c : Thread nD τ) arg12 fullShare (k0_pay2 (featHalf i x) acc a)) -∗ K ⟨⟩))
      ⊢ wp frame (wpE (defs₀ (F := F)) Variants.none c none) E (cc0__layer1_kernel i arg2 harg2 arg3 harg3 arg4 harg4 arg5 harg5 arg6 harg6 arg7 harg7 arg8 harg8 arg9 harg9 arg10 harg10 arg11 harg11 arg12 harg12) K := by
  iintro ⟨H2, H3, H4, H5, H6, H7, H8, H9, H10, H11, HS, Hk⟩
  iapply ((runLastHalf c i arg2 harg2 arg3 harg3 arg4 harg4 arg5 harg5 arg6 harg6 arg7 harg7 arg8 harg8 arg9 harg9 arg10 harg10 arg11 harg11 arg12 harg12 hc0 hc1 a x xr dv wl wr b wq acc).2.2.2 E K)
  iframe H2 H3 H4 H5 H6 H7 H8 H9 H10 H11 HS
  iintro ⟨H2, H3, H4, H5, H6, H7, H8, H9, ⟨%f10, H10⟩, ⟨%f11, H11⟩, ⟨%fs, HS⟩⟩
  iapply Hk
  iframe H2 H3 H4 H5 H6 H7 H8 H9
  isplitl [H10]
  · unfold owns; iexists _; isplitr
    swap; · iexact H10
    ipureintro
    rw [View.read_writes_eq_canon _ _ _ (runLastHalf_cover_hid c i arg2 harg2 arg3 harg3 arg4 harg4 arg5 harg5 arg6 harg6 arg7 harg7 arg8 harg8 arg9 harg9 arg10 harg10 arg11 harg11 arg12 harg12 hc0 hc1 a x xr dv wl wr b wq acc)]
    exact runLastHalf_hid c i arg2 harg2 arg3 harg3 arg4 harg4 arg5 harg5 arg6 harg6 arg7 harg7 arg8 harg8 arg9 harg9 arg10 harg10 arg11 harg11 arg12 harg12 hc0 hc1 a x xr dv wl wr b wq acc
  isplitl [H11]
  · unfold owns; iexists _; isplitr
    swap; · iexact H11
    ipureintro
    rw [View.read_writes_eq_canon _ _ _ (runLastHalf_cover_proj c i arg2 harg2 arg3 harg3 arg4 harg4 arg5 harg5 arg6 harg6 arg7 harg7 arg8 harg8 arg9 harg9 arg10 harg10 arg11 harg11 arg12 harg12 hc0 hc1 a x xr dv wl wr b wq acc)]
    exact runLastHalf_proj c i arg2 harg2 arg3 harg3 arg4 harg4 arg5 harg5 arg6 harg6 arg7 harg7 arg8 harg8 arg9 harg9 arg10 harg10 arg11 harg11 arg12 harg12 hc0 hc1 a x xr dv wl wr b wq acc
  unfold owns; iexists _; isplitr
  swap; · iexact HS
  ipureintro
  rw [View.read_writes_eq_canon _ _ _ (runLastHalf_cover_acc c i arg2 harg2 arg3 harg3 arg4 harg4 arg5 harg5 arg6 harg6 arg7 harg7 arg8 harg8 arg9 harg9 arg10 harg10 arg11 harg11 arg12 harg12 hc0 hc1 a x xr dv wl wr b wq acc)]
  exact runLastHalf_acc c i arg2 harg2 arg3 harg3 arg4 harg4 arg5 harg5 arg6 harg6 arg7 harg7 arg8 harg8 arg9 harg9 arg10 harg10 arg11 harg11 arg12 harg12 hc0 hc1 a x xr dv wl wr b wq acc

end Cert.KernelIdeal.Hand

end
-- ==== Proof.KI.Region0.lean ====
import proofs.«419373_j70497593197182_3_alg».proof.Proof.Gen.KernelIdeal.Regions
import proofs.«419373_j70497593197182_3_alg».proof.Proof.Gen.KernelIdeal.Points
import proofs.«419373_j70497593197182_3_alg».proof.Proof.KSpec
import proofs.«419373_j70497593197182_3_alg».proof.Proof.KI.Body0Last
import Idealize.ShloMosaic.Lib.Pipeline.Frame
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def q0 : Fin 10 → PosShare TreeShare
  | ⟨0, _⟩ => fullShare
  | ⟨1, _⟩ => fullShare.left
  | ⟨2, _⟩ => fullShare.right
  | ⟨3, _⟩ => fullShare
  | ⟨4, _⟩ => fullShare
  | ⟨5, _⟩ => fullShare
  | ⟨6, _⟩ => fullShare
  | ⟨7, _⟩ => fullShare
  | ⟨8, _⟩ => fullShare
  | ⟨9, _⟩ => fullShare

variable (V : (c : Dev nD) → Valuation τ sig (Elt F))

def iblk (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

abbrev cntBlk (c : Dev nD) (t : Fin cfg0.N) : Vec F S1024x5120 .bf16 := iblk V c 0 t

abbrev featAll (c : Dev nD) (t : Fin cfg0.N) : Vec F S10240x50 .bf16 := iblk V c 1 t

abbrev featRows (c : Dev nD) (t : Fin cfg0.N) : Vec F S1024x50 .bf16 := iblk V c 2 t

abbrev dinvRows (c : Dev nD) (t : Fin cfg0.N) : Vec F S1024x1 .f32 := iblk V c 3 t

abbrev wNbr (c : Dev nD) (t : Fin cfg0.N) : Vec F S50x512 .bf16 := iblk V c 4 t

abbrev wSelf (c : Dev nD) (t : Fin cfg0.N) : Vec F S50x512 .bf16 := iblk V c 5 t

abbrev bias1 (c : Dev nD) (t : Fin cfg0.N) : Vec F S1x512 .f32 := iblk V c 6 t

abbrev wProj (c : Dev nD) (t : Fin cfg0.N) : Vec F S512x128 .bf16 := iblk V c 7 t

def accFirst (c : Dev nD) (t : Fin cfg0.N) : Vec F S1024x50 .f32 :=
  k0_pay2 (featHalf (grid0.coords t) (featAll V c t)) (k0_pay1 (F := F)) (cntBlk V c t)

def accLast (c : Dev nD) (t : Fin cfg0.N) : Vec F S1024x50 .f32 :=
  k0_pay2 (featHalf (grid0.coords t) (featAll V c t))
    (accFirst V c ⟨t.val - 1, Nat.lt_of_le_of_lt (Nat.sub_le _ _) t.isLt⟩) (cntBlk V c t)

def accAt (c : Dev nD) (t : Fin cfg0.N) : Vec F S1024x50 .f32 :=
  if t.val % 2 = 0 then accFirst V c t else accLast V c t

def hidAt (c : Dev nD) (t : Fin cfg0.N) : Vec F S1024x512 .bf16 :=
  k0_pay3 (accAt V c t) (dinvRows V c t) (wNbr V c t) (featRows V c t) (wSelf V c t) (bias1 V c t)

def projAt (c : Dev nD) (t : Fin cfg0.N) : Vec F S1024x128 .bf16 :=
  k0_pay4 (accAt V c t) (dinvRows V c t) (wNbr V c t) (featRows V c t) (wSelf V c t) (bias1 V c t) (wProj V c t)

abbrev scr0 : Memref sig .tc .vmem S1024x50 .f32 := Memref.whole cc0_scratch0

abbrev others0 (c : Dev nD) : sProp 𝕄 :=
  Pipeline.scopedRestBut (Ix := Unit) (Name := ℕ) (U := UR sig nD τ) (Lvl := ℕ) (Val := Elt F) spec0 c [cc0_scratch0]

theorem scopedRest0_split (c : Dev nD) :
    (Pipeline.scopedRest (Ix := Unit) (Name := ℕ) (U := UR sig nD τ) (Lvl := ℕ) (Val := Elt F) spec0 c : sProp 𝕄)
      = iprop((∃ d, owns (c : Thread nD τ) scr0 fullShare d) ∗ others0 c) := by
  rw [Pipeline.scopedRest_split_of_list spec0 c [cc0_scratch0] (by decide) (by decide)]
  simp only [bigSepL_singleton, scr0, owns_whole]
  try rfl

def Phi0 (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scr0 fullShare (accAt V c ⟨n, hn⟩) ∗ others0 c)

theorem Phi0_zero (c : Dev nD) (n : ℕ) (h : n ≤ cfg0.N) (hz : n = 0) :
    Phi0 V c n h = Pipeline.scopedRest (Ix := Unit) (Name := ℕ) (U := UR sig nD τ) (Lvl := ℕ) (Val := Elt F) spec0 c := by
  subst hz; rfl

theorem Phi0_succ (c : Dev nD) (n : ℕ) (hn : n < cfg0.N) :
    Phi0 V c (n + 1) hn = iprop(owns (c : Thread nD τ) scr0 fullShare (accAt V c ⟨n, hn⟩) ∗ others0 c) := rfl

theorem Phi0_pos (c : Dev nD) (n : ℕ) (h : n ≤ cfg0.N) (hz : n ≠ 0) :
    Phi0 V c n h = iprop(owns (c : Thread nD τ) scr0 fullShare (accAt V c ⟨n - 1, by omega⟩) ∗ others0 c) := by
  cases n with
  | zero => exact absurd rfl hz
  | succ n => rfl

/-- Before any point the invariant holds the accumulator at some contents. -/
theorem Phi0_acc (c : Dev nD) (n : ℕ) (h : n ≤ cfg0.N) :
    Phi0 V c n h ⊢ iprop((∃ d, owns (c : Thread nD τ) scr0 fullShare d) ∗ others0 c) := by
  cases n with
  | zero => rw [Phi0_zero V c 0 h rfl, scopedRest0_split]
  | succ n =>
    rw [Phi0_succ]
    iintro ⟨HS, HR⟩
    isplitl [HS]
    · iexists _; iexact HS
    iexact HR

def dat0 (V : (c : Dev nD) → Valuation τ sig (Elt F)) (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => hidAt V c t
    | ⟨9, _⟩ => projAt V c t
  Φ t := Phi0 V c t.val (Nat.le_of_lt_succ t.isLt)
  q := q0
  owed _ := 0

theorem dat0_A (V : (c : Dev nD) → Valuation τ sig (Elt F)) (c : Dev nD) (w : Fin cfg0.W) :
    (dat0 V c).A w = V c (Pipeline.arrRef spec0 w) := by dsimp only [dat0]

theorem dat0_q (V : (c : Dev nD) → Valuation τ sig (Elt F)) (c : Dev nD) : (dat0 V c).q = q0 := by dsimp only [dat0]

theorem dat0_owed (V : (c : Dev nD) → Valuation τ sig (Elt F)) (c : Dev nD) (t : Fin (cfg0.N + 1)) : (dat0 V c).owed t = 0 := by dsimp only [dat0]

theorem dat0_recorded (V : (c : Dev nD) → Valuation τ sig (Elt F)) (c : Dev nD) (t : Fin (cfg0.N + 1)) : (dat0 V c).recorded t = Set.univ := by dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = iblk V c 4 t := by dsimp only [dat0]
theorem after0_5 (c : Dev nD) (t : Fin cfg0.N) : (dat0 V c).after 5 t = iblk V c 5 t := by dsimp only [dat0]
theorem after0_6 (c : Dev nD) (t : Fin cfg0.N) : (dat0 V c).after 6 t = iblk V c 6 t := by dsimp only [dat0]
theorem after0_7 (c : Dev nD) (t : Fin cfg0.N) : (dat0 V c).after 7 t = iblk V c 7 t := by dsimp only [dat0]
theorem after0_8 (c : Dev nD) (t : Fin cfg0.N) : (dat0 V c).after 8 t = hidAt V c t := by dsimp only [dat0]
theorem after0_9 (c : Dev nD) (t : Fin cfg0.N) : (dat0 V c).after 9 t = projAt V c t := by dsimp only [dat0]

theorem before0_0 (c : Dev nD) (t : Fin cfg0.N) (d) : (dat0 V c).before 0 t d = iblk V c 0 t :=
  ((dat0 V c).before_in_eq_fetched 0 rfl (fun _ => rfl) (fun _ _ _ => rfl)
    (fun t => by rw [after0_0]; unfold Dat.blockOf iblk; rw [dat0_A]; try rfl) t d).trans
    (by unfold Dat.fetched Dat.blockOf iblk; rw [dat0_A]; try rfl)
theorem before0_1 (c : Dev nD) (t : Fin cfg0.N) (d) : (dat0 V c).before 1 t d = iblk V c 1 t :=
  ((dat0 V c).before_in_eq_fetched 1 rfl (fun _ => rfl) (fun _ _ _ => rfl)
    (fun t => by rw [after0_1]; unfold Dat.blockOf iblk; rw [dat0_A]; try rfl) t d).trans
    (by unfold Dat.fetched Dat.blockOf iblk; rw [dat0_A]; try rfl)
theorem before0_2 (c : Dev nD) (t : Fin cfg0.N) (d) : (dat0 V c).before 2 t d = iblk V c 2 t :=
  ((dat0 V c).before_in_eq_fetched 2 rfl (fun _ => rfl) (fun _ _ _ => rfl)
    (fun t => by rw [after0_2]; unfold Dat.blockOf iblk; rw [dat0_A]; try rfl) t d).trans
    (by unfold Dat.fetched Dat.blockOf iblk; rw [dat0_A]; try rfl)
theorem before0_3 (c : Dev nD) (t : Fin cfg0.N) (d) : (dat0 V c).before 3 t d = iblk V c 3 t :=
  ((dat0 V c).before_in_eq_fetched 3 rfl (fun _ => rfl) (fun _ _ _ => rfl)
    (fun t => by rw [after0_3]; unfold Dat.blockOf iblk; rw [dat0_A]; try rfl) t d).trans
    (by unfold Dat.fetched Dat.blockOf iblk; rw [dat0_A]; try rfl)
theorem before0_4 (c : Dev nD) (t : Fin cfg0.N) (d) : (dat0 V c).before 4 t d = iblk V c 4 t :=
  ((dat0 V c).before_in_eq_fetched 4 rfl (fun _ => rfl) (fun _ _ _ => rfl)
    (fun t => by rw [after0_4]; unfold Dat.blockOf iblk; rw [dat0_A]; try rfl) t d).trans
    (by unfold Dat.fetched Dat.blockOf iblk; rw [dat0_A]; try rfl)
theorem before0_5 (c : Dev nD) (t : Fin cfg0.N) (d) : (dat0 V c).before 5 t d = iblk V c 5 t :=
  ((dat0 V c).before_in_eq_fetched 5 rfl (fun _ => rfl) (fun _ _ _ => rfl)
    (fun t => by rw [after0_5]; unfold Dat.blockOf iblk; rw [dat0_A]; try rfl) t d).trans
    (by unfold Dat.fetched Dat.blockOf iblk; rw [dat0_A]; try rfl)
theorem before0_6 (c : Dev nD) (t : Fin cfg0.N) (d) : (dat0 V c).before 6 t d = iblk V c 6 t :=
  ((dat0 V c).before_in_eq_fetched 6 rfl (fun _ => rfl) (fun _ _ _ => rfl)
    (fun t => by rw [after0_6]; unfold Dat.blockOf iblk; rw [dat0_A]; try rfl) t d).trans
    (by unfold Dat.fetched Dat.blockOf iblk; rw [dat0_A]; try rfl)
theorem before0_7 (c : Dev nD) (t : Fin cfg0.N) (d) : (dat0 V c).before 7 t d = iblk V c 7 t :=
  ((dat0 V c).before_in_eq_fetched 7 rfl (fun _ => rfl) (fun _ _ _ => rfl)
    (fun t => by rw [after0_7]; unfold Dat.blockOf iblk; rw [dat0_A]; try rfl) t d).trans
    (by unfold Dat.fetched Dat.blockOf iblk; rw [dat0_A]; try rfl)

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
theorem live0_5 : ∀ t : Fin cfg0.N, cfg0.idle 5 (grid0.coords t) = false := by decide +kernel
theorem live0_6 : ∀ t : Fin cfg0.N, cfg0.idle 6 (grid0.coords t) = false := by decide +kernel
theorem live0_7 : ∀ t : Fin cfg0.N, cfg0.idle 7 (grid0.coords t) = false := by decide +kernel

theorem idle0_8_even : ∀ t : Fin cfg0.N, t.val % 2 = 0 → cfg0.idle 8 (grid0.coords t) = true := by decide +kernel
theorem idle0_9_even : ∀ t : Fin cfg0.N, t.val % 2 = 0 → cfg0.idle 9 (grid0.coords t) = true := by decide +kernel
theorem noFlush0_8_even : ∀ t : Fin cfg0.N, t.val % 2 = 0 → (cfg0.win 8).flush t = false := by decide +kernel
theorem noFlush0_9_even : ∀ t : Fin cfg0.N, t.val % 2 = 0 → (cfg0.win 9).flush t = false := by decide +kernel

theorem live0_8_odd : ∀ t : Fin cfg0.N, t.val % 2 = 1 → cfg0.idle 8 (grid0.coords t) = false := by decide +kernel
theorem live0_9_odd : ∀ t : Fin cfg0.N, t.val % 2 = 1 → cfg0.idle 9 (grid0.coords t) = false := by decide +kernel

abbrev ms0 (t : Fin cfg0.N) : Memref sig .tc .vmem S1024x5120 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S10240x50 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x50 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S50x512 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S50x512 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x128 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x512 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1024x128 .bf16 := win0_9.stage (cfg0.slots t 9)
abbrev hs9 (t : Fin cfg0.N) : (ms9 t).IsWhole := hstage0_9 ((cfg0.slots t 9).cast nbuf0_9)

def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d))
    ∗ (∃ d, owns (c : Thread nD τ) (ms5 t) fullShare ((dat0 V c).before 5 t d))
    ∗ (∃ d, owns (c : Thread nD τ) (ms6 t) fullShare ((dat0 V c).before 6 t d))
    ∗ (∃ d, owns (c : Thread nD τ) (ms7 t) fullShare ((dat0 V c).before 7 t d))
    ∗ (∃ d, owns (c : Thread nD τ) (ms8 t) fullShare ((dat0 V c).before 8 t d))
    ∗ (∃ d, owns (c : Thread nD τ) (ms9 t) fullShare ((dat0 V c).before 9 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 4800000 in

/-- Every grid point meets its obligation: even points by the first-half run, odd points by the last-half run. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5, before0_6, before0_7]
  rw [show (dat0 V c).owesAt () t.succ = (dat0 V c).owesAt () t.castSucc from rfl]
  rw [show (dat0 V c).Φ t.succ = Phi0 V c (t.val + 1) t.isLt from rfl, Phi0_succ]
  have hN : t.val < 20 := lt_of_lt_of_eq t.isLt (show cfg0.N = 20 from N_0)
  rw [show (dat0 V c).leavesExact 0 t = owns (c : Thread nD τ) (ms0 t) fullShare ((dat0 V c).after 0 t) from by
    unfold Dat.leavesExact; rw [live0_0 t], after0_0]
  rw [show (dat0 V c).leavesExact 1 t = owns (c : Thread nD τ) (ms1 t) fullShare ((dat0 V c).after 1 t) from by
    unfold Dat.leavesExact; rw [live0_1 t], after0_1]
  rw [show (dat0 V c).leavesExact 2 t = owns (c : Thread nD τ) (ms2 t) fullShare ((dat0 V c).after 2 t) from by
    unfold Dat.leavesExact; rw [live0_2 t], after0_2]
  rw [show (dat0 V c).leavesExact 3 t = owns (c : Thread nD τ) (ms3 t) fullShare ((dat0 V c).after 3 t) from by
    unfold Dat.leavesExact; rw [live0_3 t], after0_3]
  rw [show (dat0 V c).leavesExact 4 t = owns (c : Thread nD τ) (ms4 t) fullShare ((dat0 V c).after 4 t) from by
    unfold Dat.leavesExact; rw [live0_4 t], after0_4]
  rw [show (dat0 V c).leavesExact 5 t = owns (c : Thread nD τ) (ms5 t) fullShare ((dat0 V c).after 5 t) from by
    unfold Dat.leavesExact; rw [live0_5 t], after0_5]
  rw [show (dat0 V c).leavesExact 6 t = owns (c : Thread nD τ) (ms6 t) fullShare ((dat0 V c).after 6 t) from by
    unfold Dat.leavesExact; rw [live0_6 t], after0_6]
  rw [show (dat0 V c).leavesExact 7 t = owns (c : Thread nD τ) (ms7 t) fullShare ((dat0 V c).after 7 t) from by
    unfold Dat.leavesExact; rw [live0_7 t], after0_7]
  by_cases h0 : t.val % 2 = 0
  · have hc0 : isFirstHalf (grid0.coords t) := (isFirstHalf_iff t).mpr h0
    have hc1 : ¬isLastHalf (grid0.coords t) := fun h => by have := (isLastHalf_iff t).mp h; omega
    rw [Dat.leavesExact_idle (dat0 V c) 8 t (idle0_8_even t h0) (noFlush0_8_even t h0)]
    rw [Dat.leavesExact_idle (dat0 V c) 9 t (idle0_9_even t h0) (noFlush0_9_even t h0)]
    rw [show accAt V c ⟨t.val, t.isLt⟩ = accFirst V c t from if_pos h0]
    unfold accFirst
    rw [Phi0_castSucc V c t]
    refine (sep_mono (Phi0_acc V c _ _) .rfl).trans ?_
    iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
    iapply (firstHalf_body c (grid0.coords t) _ _ _ _ _ _ _ _ _ _ _ _ _ _ _ _ _ _ _ _ _ _ hc0 hc1 (cntBlk V c t) (featAll V c t) Set.univ _)
    iframe H0 H1 HS
    iintro ⟨H0, H1, HS⟩
    isplitl [HS HR]
    · isplitl [HS]; · iexact HS
      iexact HR
    iframe Ho H0 H1 H2 H3 H4 H5 H6 H7 H8
    iexact H9
  · have h1 : t.val % 2 = 1 := by omega
    have hz : t.val ≠ 0 := by omega
    have hc0 : ¬isFirstHalf (grid0.coords t) := fun h => h0 ((isFirstHalf_iff t).mp h)
    have hc1 : isLastHalf (grid0.coords t) := (isLastHalf_iff t).mpr h1
    rw [show (dat0 V c).leavesExact 8 t = owns (c : Thread nD τ) (ms8 t) fullShare ((dat0 V c).after 8 t) from by
      unfold Dat.leavesExact; rw [live0_8_odd t h1], after0_8]
    rw [show (dat0 V c).leavesExact 9 t = owns (c : Thread nD τ) (ms9 t) fullShare ((dat0 V c).after 9 t) from by
      unfold Dat.leavesExact; rw [live0_9_odd t h1], after0_9]
    unfold hidAt projAt
    rw [show accAt V c ⟨t.val, t.isLt⟩ = accLast V c t from if_neg h0]
    unfold accLast
    rw [Phi0_castSucc V c t, Phi0_pos V c _ _ hz]
    rw [show accAt V c ⟨t.val - 1, by omega⟩ = accFirst V c ⟨t.val - 1, Nat.lt_of_le_of_lt (Nat.sub_le _ _) t.isLt⟩ from
      if_pos (by show (t.val - 1) % 2 = 0; omega)]
    iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (lastHalf_body c (grid0.coords t) _ _ _ _ _ _ _ _ _ _ _ _ _ _ _ _ _ _ _ _ _ _ hc0 hc1 (cntBlk V c t) (featAll V c t) (featRows V c t) (dinvRows V c t)
      (wNbr V c t) (wSelf V c t) (bias1 V c t) (wProj V c t) (accFirst V c ⟨t.val - 1, Nat.lt_of_le_of_lt (Nat.sub_le _ _) t.isLt⟩) Set.univ _)
    iframe H0 H1 H2 H3 H4 H5 H6 H7
    isplitl [H8]; · iexists _; iexact H8
    isplitl [H9]; · iexists _; iexact H9
    isplitl [HS]; · iexact HS
    iintro ⟨H0, H1, H2, H3, H4, H5, H6, H7, H8, H9, HS⟩
    isplitl [HS HR]
    · isplitl [HS]; · iexact HS
      iexact HR
    iframe Ho H0 H1 H2 H3 H4 H5 H6 H7 H8
    iexact H9

theorem body0 (V : (c : Dev nD) → Valuation τ sig (Elt F)) (c : Dev nD) :
    BodyObligation (dat0 V c) (defs₀ (F := F)) Variants.none () Set.univ := fun t => by
  rw [bigSep_W0, bigSep_W0]
  exact sound_body V c t

theorem Phi0_in (V : (c : Dev nD) → Valuation τ sig (Elt F)) (c : Dev nD) :
    (Pipeline.scopedRest (Ix := Unit) (Name := ℕ) (U := UR sig nD τ) (Lvl := ℕ) (Val := Elt F) spec0 c : sProp 𝕄) ⊢ (dat0 V c).Φ 0 := by
  rw [show (dat0 V c).Φ 0 = Phi0 V c 0 (Nat.zero_le _) from rfl, Phi0_zero V c 0 _ rfl]

theorem Phi0_out (V : (c : Dev nD) → Valuation τ sig (Elt F)) (c : Dev nD) :
    (dat0 V c).Φ (Fin.last cfg0.N) ⊢ (Pipeline.scopedRest (Ix := Unit) (Name := ℕ) (U := UR sig nD τ) (Lvl := ℕ) (Val := Elt F) spec0 c : sProp 𝕄) := by
  rw [show (dat0 V c).Φ (Fin.last cfg0.N) = Phi0 V c (Fin.last cfg0.N).val (Nat.le_of_lt_succ (Fin.last cfg0.N).isLt) from rfl,
    scopedRest0_split]
  exact Phi0_acc V c _ _

theorem index_facts : ∀ t : Fin cfg0.N,
    win0_0.index t (0 : Fin 2) = t.val / 2 ∧ win0_0.index t (1 : Fin 2) = t.val % 2
    ∧ win0_1.index t (0 : Fin 2) = 0 ∧ win0_1.index t (1 : Fin 2) = 0
    ∧ win0_2.index t (0 : Fin 2) = t.val / 2 ∧ win0_2.index t (1 : Fin 2) = 0
    ∧ win0_3.index t (0 : Fin 2) = t.val / 2 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val / 2 ∧ win0_8.index t (1 : Fin 2) = 0
    ∧ win0_9.index t (0 : Fin 2) = t.val / 2 ∧ win0_9.index t (1 : Fin 2) = 0
    ∧ ((grid0.coords t) 1).val = t.val % 2 :=
  (by decide +kernel : ∀ t : Fin grid0.N, _)

theorem cntBlk_eq (c : Dev nD) (t : Fin cfg0.N) (mb : Fin 10) (kb : Fin 2) (hm : t.val / 2 = mb.val) (hk : t.val % 2 = kb.val) :
    cntBlk V c t = KSpec.blkA (V c main_v20) mb kb := by
  obtain ⟨e0, e1, -⟩ := index_facts t
  funext y
  show V c main_v20 (((cfg0.win 0).blk t).view.emb y) = V c main_v20 _
  refine congrArg _ ?_
  funext a; apply Fin.ext
  match a with
  | ⟨0, _⟩ => show win0_0.index t (0 : Fin 2) * 1024 + 1 * (y 0).val = 1024 * mb.val + (y 0).val; omega
  | ⟨1, _⟩ => show win0_0.index t (1 : Fin 2) * 5120 + 1 * (y 1).val = 5120 * kb.val + (y 1).val; omega

theorem featHalf_eq (c : Dev nD) (t : Fin cfg0.N) (kb : Fin 2) (hk : t.val % 2 = kb.val) :
    featHalf (grid0.coords t) (featAll V c t) = KSpec.half50 (V c main_v36) kb := by
  obtain ⟨-, -, e0, e1, -, -, -, -, -, -, -, -, -, -, -, -, -, -, -, -, ec⟩ := index_facts t
  have hoff : k0_off1 (grid0.coords t) = ![5120 * kb.val, 0] := by rw [k0_off1_eq, ec, hk]
  funext y
  show V c main_v36 (((cfg0.win 1).blk t).view.emb ((Rect.unit (s := S10240x50) (k0_off1 (grid0.coords t)) S5120x50.size (k0_off1_inb (grid0.coords t))).emb y)) = V c main_v36 _
  refine congrArg _ ?_
  funext a; apply Fin.ext
  match a with
  | ⟨0, _⟩ =>
    show win0_1.index t (0 : Fin 2) * 10240 + 1 * (k0_off1 (grid0.coords t) 0 + 1 * (y 0).val) = 5120 * kb.val + (y 0).val
    rw [hoff]; show win0_1.index t (0 : Fin 2) * 10240 + 1 * (5120 * kb.val + 1 * (y 0).val) = 5120 * kb.val + (y 0).val; omega
  | ⟨1, _⟩ =>
    show win0_1.index t (1 : Fin 2) * 50 + 1 * (k0_off1 (grid0.coords t) 1 + 1 * (y 1).val) = (y 1).val
    rw [hoff]; show win0_1.index t (1 : Fin 2) * 50 + 1 * (0 + 1 * (y 1).val) = (y 1).val; omega

theorem featRows_eq (c : Dev nD) (t : Fin cfg0.N) (mb : Fin 10) (hm : t.val / 2 = mb.val) :
    featRows V c t = KSpec.rows50 (V c main_v36) mb := by
  obtain ⟨-, -, -, -, e0, e1, -⟩ := index_facts t
  funext y
  show V c main_v36 (((cfg0.win 2).blk t).view.emb y) = V c main_v36 _
  refine congrArg _ ?_
  funext a; apply Fin.ext
  match a with
  | ⟨0, _⟩ => show win0_2.index t (0 : Fin 2) * 1024 + 1 * (y 0).val = 1024 * mb.val + (y 0).val; omega
  | ⟨1, _⟩ => show win0_2.index t (1 : Fin 2) * 50 + 1 * (y 1).val = (y 1).val; omega

theorem dinvRows_eq (c : Dev nD) (t : Fin cfg0.N) (mb : Fin 10) (hm : t.val / 2 = mb.val) :
    dinvRows V c t = KSpec.rows1 (V c main_v34) mb := by
  obtain ⟨-, -, -, -, -, -, e0, e1, -⟩ := index_facts t
  funext y
  show V c main_v34 (((cfg0.win 3).blk t).view.emb y) = V c main_v34 _
  refine congrArg _ ?_
  funext a; apply Fin.ext
  match a with
  | ⟨0, _⟩ => show win0_3.index t (0 : Fin 2) * 1024 + 1 * (y 0).val = 1024 * mb.val + (y 0).val; omega
  | ⟨1, _⟩ => show win0_3.index t (1 : Fin 2) * 1 + 1 * (y 1).val = (y 1).val; omega

theorem wNbr_eq (c : Dev nD) (t : Fin cfg0.N) : wNbr V c t = V c main_v37 := by
  obtain ⟨-, -, -, -, -, -, -, -, e0, e1, -⟩ := index_facts t
  funext y
  show V c main_v37 (((cfg0.win 4).blk t).view.emb y) = V c main_v37 y
  refine congrArg _ ?_
  funext a; apply Fin.ext
  match a with
  | ⟨0, _⟩ => show win0_4.index t (0 : Fin 2) * 50 + 1 * (y 0).val = (y 0).val; omega
  | ⟨1, _⟩ => show win0_4.index t (1 : Fin 2) * 512 + 1 * (y 1).val = (y 1).val; omega

theorem wSelf_eq (c : Dev nD) (t : Fin cfg0.N) : wSelf V c t = V c main_v38 := by
  obtain ⟨-, -, -, -, -, -, -, -, -, -, e0, e1, -⟩ := index_facts t
  funext y
  show V c main_v38 (((cfg0.win 5).blk t).view.emb y) = V c main_v38 y
  refine congrArg _ ?_
  funext a; apply Fin.ext
  match a with
  | ⟨0, _⟩ => show win0_5.index t (0 : Fin 2) * 50 + 1 * (y 0).val = (y 0).val; omega
  | ⟨1, _⟩ => show win0_5.index t (1 : Fin 2) * 512 + 1 * (y 1).val = (y 1).val; omega

theorem bias1_eq (c : Dev nD) (t : Fin cfg0.N) : bias1 V c t = V c main_v39 := by
  obtain ⟨-, -, -, -, -, -, -, -, -, -, -, -, e0, e1, -⟩ := index_facts t
  funext y
  show V c main_v39 (((cfg0.win 6).blk t).view.emb y) = V c main_v39 y
  refine congrArg _ ?_
  funext a; apply Fin.ext
  match a with
  | ⟨0, _⟩ => show win0_6.index t (0 : Fin 2) * 1 + 1 * (y 0).val = (y 0).val; omega
  | ⟨1, _⟩ => show win0_6.index t (1 : Fin 2) * 512 + 1 * (y 1).val = (y 1).val; omega

theorem wProj_eq (c : Dev nD) (t : Fin cfg0.N) : wProj V c t = V c main_v41 := by
  obtain ⟨-, -, -, -, -, -, -, -, -, -, -, -, -, -, e0, e1, -⟩ := index_facts t
  funext y
  show V c main_v41 (((cfg0.win 7).blk t).view.emb y) = V c main_v41 y
  refine congrArg _ ?_
  funext a; apply Fin.ext
  match a with
  | ⟨0, _⟩ => show win0_7.index t (0 : Fin 2) * 512 + 1 * (y 0).val = (y 0).val; omega
  | ⟨1, _⟩ => show win0_7.index t (1 : Fin 2) * 128 + 1 * (y 1).val = (y 1).val; omega

theorem accAt_odd (c : Dev nD) (t : Fin cfg0.N) (h1 : t.val % 2 = 1) (mb : Fin 10) (hm : t.val / 2 = mb.val) :
    accAt V c t = KSpec.acc0 (KSpec.blkA (V c main_v20) mb 0) (KSpec.blkA (V c main_v20) mb 1)
      (KSpec.half50 (V c main_v36) 0) (KSpec.half50 (V c main_v36) 1) := by
  rw [show accAt V c t = accLast V c t from if_neg (by omega)]
  unfold accLast accFirst KSpec.acc0
  rw [cntBlk_eq V c t mb 1 hm h1, featHalf_eq V c t 1 h1,
    cntBlk_eq V c ⟨t.val - 1, Nat.lt_of_le_of_lt (Nat.sub_le _ _) t.isLt⟩ mb 0 (by show (t.val - 1) / 2 = mb.val; omega) (by show (t.val - 1) % 2 = 0; omega),
    featHalf_eq V c ⟨t.val - 1, Nat.lt_of_le_of_lt (Nat.sub_le _ _) t.isLt⟩ 0 (by show (t.val - 1) % 2 = 0; omega)]

theorem hidAt_odd (c : Dev nD) (t : Fin cfg0.N) (h1 : t.val % 2 = 1) (mb : Fin 10) (hm : t.val / 2 = mb.val) :
    hidAt V c t = KSpec.h1b (KSpec.blkA (V c main_v20) mb 0) (KSpec.blkA (V c main_v20) mb 1)
      (KSpec.half50 (V c main_v36) 0) (KSpec.half50 (V c main_v36) 1) (KSpec.rows1 (V c main_v34) mb) (V c main_v37)
      (KSpec.rows50 (V c main_v36) mb) (V c main_v38) (V c main_v39) := by
  unfold hidAt KSpec.h1b
  rw [accAt_odd V c t h1 mb hm, dinvRows_eq V c t mb hm, wNbr_eq V c t, featRows_eq V c t mb hm, wSelf_eq V c t, bias1_eq V c t]

theorem projAt_odd (c : Dev nD) (t : Fin cfg0.N) (h1 : t.val % 2 = 1) (mb : Fin 10) (hm : t.val / 2 = mb.val) :
    projAt V c t = KSpec.pb (KSpec.blkA (V c main_v20) mb 0) (KSpec.blkA (V c main_v20) mb 1)
      (KSpec.half50 (V c main_v36) 0) (KSpec.half50 (V c main_v36) 1) (KSpec.rows1 (V c main_v34) mb) (V c main_v37)
      (KSpec.rows50 (V c main_v36) mb) (V c main_v38) (V c main_v39) (V c main_v41) := by
  unfold projAt KSpec.pb
  rw [accAt_odd V c t h1 mb hm, dinvRows_eq V c t mb hm, wNbr_eq V c t, featRows_eq V c t mb hm, wSelf_eq V c t, bias1_eq V c t, wProj_eq V c t]

theorem G_h1_at (A : FVec F S10240x10240 .bf16) (X : FVec F S10240x50 .bf16) (D : FVec F S10240x1 .f32)
    (Wl Wr : FVec F S50x512 .bf16) (b : FVec F S1x512 .f32) (i : S10240x512.Idx) (mb : Fin 10) (r : Fin 1024) (q : Fin 512)
    (h0 : (i 0).val = 1024 * mb.val + r.val) (h1 : (i 1).val = q.val) :
    KSpec.G_h1 A X D Wl Wr b i
      = KSpec.h1b (KSpec.blkA A mb 0) (KSpec.blkA A mb 1) (KSpec.half50 X 0) (KSpec.half50 X 1) (KSpec.rows1 D mb) Wl (KSpec.rows50 X mb) Wr b
          (ValueIdx.ix2 r q) := by
  have hb : KSpec.blockOf ⟨(i 0).val, ValueIdx.idx2_lt0 i⟩ = mb :=
    Fin.ext (by show (i 0).val / 1024 = mb.val; have := r.isLt; omega)
  have hr : KSpec.inBlock ⟨(i 0).val, ValueIdx.idx2_lt0 i⟩ = r :=
    Fin.ext (by show (i 0).val % 1024 = r.val; have := r.isLt; omega)
  have hq : (⟨(i 1).val, ValueIdx.idx2_lt1 i⟩ : Fin 512) = q := Fin.ext h1
  unfold KSpec.G_h1; dsimp only
  rw [hb, hr, hq]

theorem G_P_at (A : FVec F S10240x10240 .bf16) (X : FVec F S10240x50 .bf16) (D : FVec F S10240x1 .f32)
    (Wl Wr : FVec F S50x512 .bf16) (b : FVec F S1x512 .f32) (Wp : FVec F S512x128 .bf16) (i : S10240x128.Idx) (mb : Fin 10) (r : Fin 1024) (q : Fin 128)
    (h0 : (i 0).val = 1024 * mb.val + r.val) (h1 : (i 1).val = q.val) :
    KSpec.G_P A X D Wl Wr b Wp i
      = KSpec.pb (KSpec.blkA A mb 0) (KSpec.blkA A mb 1) (KSpec.half50 X 0) (KSpec.half50 X 1) (KSpec.rows1 D mb) Wl (KSpec.rows50 X mb) Wr b Wp
          (ValueIdx.ix2 r q) := by
  have hb : KSpec.blockOf ⟨(i 0).val, ValueIdx.idx2_lt0 i⟩ = mb :=
    Fin.ext (by show (i 0).val / 1024 = mb.val; have := r.isLt; omega)
  have hr : KSpec.inBlock ⟨(i 0).val, ValueIdx.idx2_lt0 i⟩ = r :=
    Fin.ext (by show (i 0).val % 1024 = r.val; have := r.isLt; omega)
  have hq : (⟨(i 1).val, ValueIdx.idx2_lt1 i⟩ : Fin 128) = q := Fin.ext h1
  unfold KSpec.G_P; dsimp only
  rw [hb, hr, hq]

theorem flushed0_8 (c : Dev nD) (t : Fin cfg0.N) (hf : (cfg0.win 8).flush t = true) :
    (dat0 V c).flushed 8 t = ((cfg0.win 8).blk t).view.read (Elt F) (KSpec.G_h1 (V c main_v20) (V c main_v36) (V c main_v34) (V c main_v37) (V c main_v38) (V c main_v39)) := by
  have h1 : t.val % 2 = 1 := (flush0_8 t).mp hf
  have hN : t.val < 20 := lt_of_lt_of_eq t.isLt (show cfg0.N = 20 from N_0)
  obtain ⟨-, -, -, -, -, -, -, -, -, -, -, -, -, -, -, -, e0, e1, -⟩ := index_facts t
  show (cfg0.win 8).cut (grid0.coords t) ((dat0 V c).after 8 t) = _
  rw [after0_8, hidAt_odd V c t h1 ⟨t.val / 2, by omega⟩ rfl]
  funext y
  show _ = KSpec.G_h1 (V c main_v20) (V c main_v36) (V c main_v34) (V c main_v37) (V c main_v38) (V c main_v39) (((cfg0.win 8).blk t).view.emb y)
  rw [G_h1_at (V c main_v20) (V c main_v36) (V c main_v34) (V c main_v37) (V c main_v38) (V c main_v39) (((cfg0.win 8).blk t).view.emb y) ⟨t.val / 2, by omega⟩
    ⟨(y 0).val, (y 0).isLt⟩ ⟨(y 1).val, (y 1).isLt⟩
    (by show win0_8.index t (0 : Fin 2) * 1024 + 1 * (y 0).val = 1024 * (t.val / 2) + (y 0).val; omega)
    (by show win0_8.index t (1 : Fin 2) * 512 + 1 * (y 1).val = (y 1).val; omega)]
  exact congrArg _ (funext fun a => match a with | ⟨0, _⟩ => rfl | ⟨1, _⟩ => rfl)

theorem flushed0_9 (c : Dev nD) (t : Fin cfg0.N) (hf : (cfg0.win 9).flush t = true) :
    (dat0 V c).flushed 9 t = ((cfg0.win 9).blk t).view.read (Elt F) (KSpec.G_P (V c main_v20) (V c main_v36) (V c main_v34) (V c main_v37) (V c main_v38) (V c main_v39) (V c main_v41)) := by
  have h1 : t.val % 2 = 1 := (flush0_9 t).mp hf
  have hN : t.val < 20 := lt_of_lt_of_eq t.isLt (show cfg0.N = 20 from N_0)
  obtain ⟨-, -, -, -, -, -, -, -, -, -, -, -, -, -, -, -, -, -, e0, e1, -⟩ := index_facts t
  show (cfg0.win 9).cut (grid0.coords t) ((dat0 V c).after 9 t) = _
  rw [after0_9, projAt_odd V c t h1 ⟨t.val / 2, by omega⟩ rfl]
  funext y
  show _ = KSpec.G_P (V c main_v20) (V c main_v36) (V c main_v34) (V c main_v37) (V c main_v38) (V c main_v39) (V c main_v41) (((cfg0.win 9).blk t).view.emb y)
  rw [G_P_at (V c main_v20) (V c main_v36) (V c main_v34) (V c main_v37) (V c main_v38) (V c main_v39) (V c main_v41) (((cfg0.win 9).blk t).view.emb y) ⟨t.val / 2, by omega⟩
    ⟨(y 0).val, (y 0).isLt⟩ ⟨(y 1).val, (y 1).isLt⟩
    (by show win0_9.index t (0 : Fin 2) * 1024 + 1 * (y 0).val = 1024 * (t.val / 2) + (y 0).val; omega)
    (by show win0_9.index t (1 : Fin 2) * 128 + 1 * (y 1).val = (y 1).val; omega)]
  exact congrArg _ (funext fun a => match a with | ⟨0, _⟩ => rfl | ⟨1, _⟩ => rfl)

theorem mem_blk0_8 (t : Fin cfg0.N) (i : S10240x512.Idx) :
    i ∈ ((cfg0.win 8).blk t).view.set ↔ ∀ a : Fin 2, win0_8.index t a * S1024x512.size a ≤ (i a).val ∧ (i a).val < win0_8.index t a * S1024x512.size a + S1024x512.size a := by
  show i ∈ ((View.whole main_v46_0).slice (win0_8.rect t)).set ↔ _
  rw [View.set_slice_whole, Rect.mem_set_unit]
  exact Iff.rfl

theorem mem_blk0_9 (t : Fin cfg0.N) (i : S10240x128.Idx) :
    i ∈ ((cfg0.win 9).blk t).view.set ↔ ∀ a : Fin 2, win0_9.index t a * S1024x128.size a ≤ (i a).val ∧ (i a).val < win0_9.index t a * S1024x128.size a + S1024x128.size a := by
  show i ∈ ((View.whole main_v46_1).slice (win0_9.rect t)).set ↔ _
  rw [View.set_slice_whole, Rect.mem_set_unit]
  exact Iff.rfl

theorem cover0_8 (i : S10240x512.Idx) : ∃ t : Fin cfg0.N, (cfg0.win 8).flush t = true ∧ i ∈ ((cfg0.win 8).blk t).view.set := by
  have hi0 : (i 0).val < 10240 := (i 0).isLt
  have hi1 : (i 1).val < 512 := (i 1).isLt
  obtain ⟨t, ht⟩ : ∃ t : Fin cfg0.N, t.val = 2 * ((i 0).val / 1024) + 1 :=
    ⟨⟨2 * ((i 0).val / 1024) + 1, lt_of_lt_of_eq (by omega : 2 * ((i 0).val / 1024) + 1 < 20) (show cfg0.N = 20 from N_0).symm⟩, rfl⟩
  obtain ⟨-, -, -, -, -, -, -, -, -, -, -, -, -, -, -, -, e0, e1, -⟩ := index_facts t
  refine ⟨t, (flush0_8 t).mpr (by omega), ?_⟩
  rw [mem_blk0_8]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 512 ≤ (i 1).val ∧ (i 1).val < win0_8.index t (1 : Fin 2) * 512 + 512; omega

theorem cover0_9 (i : S10240x128.Idx) : ∃ t : Fin cfg0.N, (cfg0.win 9).flush t = true ∧ i ∈ ((cfg0.win 9).blk t).view.set := by
  have hi0 : (i 0).val < 10240 := (i 0).isLt
  have hi1 : (i 1).val < 128 := (i 1).isLt
  obtain ⟨t, ht⟩ : ∃ t : Fin cfg0.N, t.val = 2 * ((i 0).val / 1024) + 1 :=
    ⟨⟨2 * ((i 0).val / 1024) + 1, lt_of_lt_of_eq (by omega : 2 * ((i 0).val / 1024) + 1 < 20) (show cfg0.N = 20 from N_0).symm⟩, rfl⟩
  obtain ⟨-, -, -, -, -, -, -, -, -, -, -, -, -, -, -, -, -, -, e0, e1, -⟩ := index_facts t
  refine ⟨t, (flush0_9 t).mpr (by omega), ?_⟩
  rw [mem_blk0_9]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 128 ≤ (i 1).val ∧ (i 1).val < win0_9.index t (1 : Fin 2) * 128 + 128; omega

/-- After the region the first result array is the whole-array function of the arrays the region was entered with; the
    second likewise. -/
theorem arrAt0_8 (V : (c : Dev nD) → Valuation τ sig (Elt F)) (c : Dev nD) :
    (dat0 V c).arrAt 8 cfg0.N = KSpec.G_h1 (V c main_v20) (V c main_v36) (V c main_v34) (V c main_v37) (V c main_v38) (V c main_v39) :=
  (dat0 V c).arrAt_eq_of_cover 8 (KSpec.G_h1 (V c main_v20) (V c main_v36) (V c main_v34) (V c main_v37) (V c main_v38) (V c main_v39)) (fun t hf => flushed0_8 V c t hf) cover0_8

theorem arrAt0_9 (V : (c : Dev nD) → Valuation τ sig (Elt F)) (c : Dev nD) :
    (dat0 V c).arrAt 9 cfg0.N = KSpec.G_P (V c main_v20) (V c main_v36) (V c main_v34) (V c main_v37) (V c main_v38) (V c main_v39) (V c main_v41) :=
  (dat0 V c).arrAt_eq_of_cover 9 (KSpec.G_P (V c main_v20) (V c main_v36) (V c main_v34) (V c main_v37) (V c main_v38) (V c main_v39) (V c main_v41)) (fun t hf => flushed0_9 V c t hf) cover0_9

end Cert.KernelIdeal.Hand

end
-- ==== Proof.KI.Body1Base.lean ====
import proofs.«419373_j70497593197182_3_alg».proof.Proof.Gen.KernelIdeal.Launch
import proofs.«419373_j70497593197182_3_alg».proof.Proof.Gen.KernelIdeal.Skeleton
import proofs.«419373_j70497593197182_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand.L2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev isFirstHalf (i : grid1.Coords) : Prop :=
  (Scalar.cmpi .ne (Scalar.extui (Scalar.cmpi .eq (BitVec.ofNat 32 (i 1).val) 0#32)) 0#32) = 1#1

theorem isFirstHalf_iff : ∀ t : Fin cfg1.N, isFirstHalf (grid1.coords t) ↔ t.val % 2 = 0 :=
  (by decide +kernel : ∀ t : Fin grid1.N, isFirstHalf (grid1.coords t) ↔ t.val % 2 = 0)

abbrev isLastHalf (i : grid1.Coords) : Prop := k1_cond2 i = 1#1

theorem isLastHalf_iff : ∀ t : Fin cfg1.N, isLastHalf (grid1.coords t) ↔ t.val % 2 = 1 :=
  (by decide +kernel : ∀ t : Fin grid1.N, isLastHalf (grid1.coords t) ↔ t.val % 2 = 1)

theorem outIdle_even : ∀ t : Fin cfg1.N, t.val % 2 = 0 → cfg1.idle 6 (grid1.coords t) = true :=
  (by decide +kernel : ∀ t : Fin grid1.N, t.val % 2 = 0 → cfg1.idle 6 (grid1.coords t) = true)

theorem outNoFlush_even (t : Fin cfg1.N) (h : t.val % 2 = 0) : (cfg1.win 6).flush t = false := by
  cases hf : (cfg1.win 6).flush t
  · rfl
  · have := (flush1_6 t).mp hf; omega

theorem outLive_odd : ∀ t : Fin cfg1.N, t.val % 2 = 1 → cfg1.idle 6 (grid1.coords t) = false :=
  (by decide +kernel : ∀ t : Fin grid1.N, t.val % 2 = 1 → cfg1.idle 6 (grid1.coords t) = false)

abbrev ms1_0 (t : Fin cfg1.N) : Memref sig .tc .vmem S1024x5120 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10240x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x128 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x128 .f32 := win1_6.stage (cfg1.slots t 6)
abbrev hs1_6 (t : Fin cfg1.N) : (ms1_6 t).IsWhole := hstage1_6 ((cfg1.slots t 6).cast nbuf1_6)

abbrev accM : Memref sig .tc .vmem S1024x128 .f32 := Memref.whole cc1_scratch0

abbrev accV : View sig .tc .vmem S1024x128 .f32 := accM.view

abbrev outV : View sig .tc .vmem S1024x128 .f32 := (Memref.whole cc1_stg6_0 : Memref sig .tc .vmem S1024x128 .f32).view

abbrev others (c : Dev nD) : sProp 𝕄 :=
  Pipeline.scopedRestBut (Ix := Unit) (Name := ℕ) (U := UR sig nD τ) (Lvl := ℕ) (Val := Elt F) spec1 c [cc1_scratch0]

theorem scopedRest_acc (c : Dev nD) :
    (Pipeline.scopedRest (Ix := Unit) (Name := ℕ) (U := UR sig nD τ) (Lvl := ℕ) (Val := Elt F) spec1 c : sProp 𝕄)
      = iprop((∃ d, owns (c : Thread nD τ) accM fullShare d) ∗ others c) := by
  rw [Pipeline.scopedRest_split_of_list spec1 c [cc1_scratch0] (by decide) (by decide)]
  simp only [bigSepL_singleton, accM, owns_whole]
  try rfl

end Cert.KernelIdeal.Hand.L2

end
-- ==== Proof.KI.Body1First.lean ====
import proofs.«419373_j70497593197182_3_alg».proof.Proof.KI.Body1Base

set_option maxRecDepth 16384

noncomputable section

namespace Cert.KernelIdeal.Hand.L2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def runFirst (c : Dev nD) (i : grid1.Coords) (arg2 : Memref sig .tc .vmem S1024x5120 .bf16) (harg2 : arg2.IsWhole) (arg3 : Memref sig .tc .vmem S10240x128 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S512x128 .bf16) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole)
    (hc0 : isFirstHalf i) (hc1 : ¬isLastHalf i)
    (x0 : Vec F S1024x5120 .bf16) (x1 : Vec F S10240x128 .bf16) :
    { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg9 fullShare d)
            ∗ (iprop(owns (c : Thread nD τ) arg2 fullShare x0 ∗ owns (c : Thread nD τ) arg3 fullShare x1
                ∗ (∃ f, arg9.view.loc (c : Thread nD τ) ↦[arg9.view.set]{fullShare} arg9.view.writes (Elt F) f LS)) -∗ K ⟨⟩))
          ⊢ wp frame (wpE (defs₀ (F := F)) Variants.none c none) E (cc1__layer2_kernel i arg2 harg2 arg3 harg3 arg4 harg4 arg5 harg5 arg6 harg6 arg7 harg7 arg8 harg8 arg9 harg9) K } := by
  refine ⟨?_, fun E K => ?run⟩
  case run =>
    simp only [cc1__layer2_kernel_eq_skeleton]; unfold cc1__layer2_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.KernelIdeal.Hand.L2

end
-- ==== Proof.KI.Body1Last.lean ====
import proofs.«419373_j70497593197182_3_alg».proof.Proof.KI.Body1First

set_option maxRecDepth 16384

noncomputable section

namespace Cert.KernelIdeal.Hand.L2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in

noncomputable def runLast (c : Dev nD) (i : grid1.Coords) (arg2 : Memref sig .tc .vmem S1024x5120 .bf16) (harg2 : arg2.IsWhole) (arg3 : Memref sig .tc .vmem S10240x128 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S512x128 .bf16) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole)
    (hc0 : ¬isFirstHalf i) (hc1 : isLastHalf i)
    (x0 : Vec F S1024x5120 .bf16) (x1 : Vec F S10240x128 .bf16) (x2 : Vec F S1024x512 .bf16) (x3 : Vec F S1024x1 .f32)
    (x4 : Vec F S512x128 .bf16) (x5 : Vec F S1x128 .f32) (xs : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f LO)
                ∗ (∃ f, arg9.view.loc (c : Thread nD τ) ↦[arg9.view.set]{fullShare} arg9.view.writes (Elt F) f LS)) -∗ K ⟨⟩))
          ⊢ wp frame (wpE (defs₀ (F := F)) Variants.none c none) E (cc1__layer2_kernel i arg2 harg2 arg3 harg3 arg4 harg4 arg5 harg5 arg6 harg6 arg7 harg7 arg8 harg8 arg9 harg9) K } := by
  refine ⟨?_, ?_, fun E K => ?run⟩
  case run =>
    simp only [cc1__layer2_kernel_eq_skeleton]; unfold cc1__layer2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS

end Cert.KernelIdeal.Hand.L2

end
-- ==== Proof.KI.Body1Vals.lean ====
import proofs.«419373_j70497593197182_3_alg».proof.Proof.KI.Body1Last
import Idealize.ShloMosaic.Lib.Pipeline.Value

set_option maxRecDepth 16384

noncomputable section

namespace Cert.KernelIdeal.Hand.L2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl

def halfAt (i : grid1.Coords) (x1 : Vec F S10240x128 .bf16) : Vec F S5120x128 .bf16 :=
  View.ld x1 (Rect.unit (s := S10240x128) (k1_off1 i) S5120x128.size (k1_off1_inb i))

def accFirst (i : grid1.Coords) (x0 : Vec F S1024x5120 .bf16) (x1 : Vec F S10240x128 .bf16) : Vec F S1024x128 .f32 :=
  k1_pay2 (halfAt i x1) (k1_pay1 (F := F)) x0

def accLast (i : grid1.Coords) (x0 : Vec F S1024x5120 .bf16) (x1 : Vec F S10240x128 .bf16) (xs : Vec F S1024x128 .f32) :
    Vec F S1024x128 .f32 :=
  k1_pay2 (halfAt i x1) xs x0

variable (c : Dev nD) (i : grid1.Coords) (arg2 : Memref sig .tc .vmem S1024x5120 .bf16) (harg2 : arg2.IsWhole) (arg3 : Memref sig .tc .vmem S10240x128 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S512x128 .bf16) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole)

section
variable (hc0 : isFirstHalf i) (hc1 : ¬isLastHalf i) (x0 : Vec F S1024x5120 .bf16) (x1 : Vec F S10240x128 .bf16)

theorem cover_first (y : S1024x128.Idx) :
    ∃ pc ∈ (runFirst c i arg2 harg2 arg3 harg3 arg4 harg4 arg5 harg5 arg6 harg6 arg7 harg7 arg8 harg8 arg9 harg9 hc0 hc1 x0 x1).1, y ∈ pc.1.set :=
  View.cover_of_tiledL (runFirst c i arg2 harg2 arg3 harg3 arg4 harg4 arg5 harg5 arg6 harg6 arg7 harg7 arg8 harg8 arg9 harg9 hc0 hc1 x0 x1).1 S1024x128.size (by sl_kernel_rfl) y

theorem canon_first :
    View.canon (runFirst c i arg2 harg2 arg3 harg3 arg4 harg4 arg5 harg5 arg6 harg6 arg7 harg7 arg8 harg8 arg9 harg9 hc0 hc1 x0 x1).1 = accFirst i x0 x1 := by
  unfold runFirst
  dsimp only
  sl_unfold_run_names
  rw [View.canon_cons_unit_zero (S := S1024x128) zeros2, View.readCov_unit_zero (S := S1024x128) _ zeros2]
  simp only [View.readAt_eq_ld, harg2.read_unread, harg3.read_unread, View.ld_unit_zero (S := S1024x5120) zeros2]
  rfl

end

section
variable (hc0 : ¬isFirstHalf i) (hc1 : isLastHalf i) (x0 : Vec F S1024x5120 .bf16) (x1 : Vec F S10240x128 .bf16) (x2 : Vec F S1024x512 .bf16)
    (x3 : Vec F S1024x1 .f32) (x4 : Vec F S512x128 .bf16) (x5 : Vec F S1x128 .f32) (xs : Vec F S1024x128 .f32)

theorem cover_last_acc (y : S1024x128.Idx) :
    ∃ pc ∈ (runLast c i arg2 harg2 arg3 harg3 arg4 harg4 arg5 harg5 arg6 harg6 arg7 harg7 arg8 harg8 arg9 harg9 hc0 hc1 x0 x1 x2 x3 x4 x5 xs).2.1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs).2.1 S1024x128.size (by sl_kernel_rfl) y

theorem canon_last_acc :
    View.canon (runLast c i arg2 harg2 arg3 harg3 arg4 harg4 arg5 harg5 arg6 harg6 arg7 harg7 arg8 harg8 arg9 harg9 hc0 hc1 x0 x1 x2 x3 x4 x5 xs).2.1 = accLast i x0 x1 xs := by
  unfold runLast
  dsimp only
  sl_unfold_run_names
  rw [View.canon_unit_zero (S := S1024x128) zeros2]
  simp only [View.readAt_eq_ld, harg2.read_unread, harg3.read_unread, harg9.read_unread,
    View.ld_unit_zero (S := S1024x5120) zeros2, View.ld_unit_zero (S := S1024x128) zeros2]
  rfl

theorem cover_last_out (y : S1024x128.Idx) :
    ∃ pc ∈ (runLast c i arg2 harg2 arg3 harg3 arg4 harg4 arg5 harg5 arg6 harg6 arg7 harg7 arg8 harg8 arg9 harg9 hc0 hc1 x0 x1 x2 x3 x4 x5 xs).1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs).1 S1024x128.size (by sl_kernel_rfl) y

theorem canon_last_out :
    View.canon (runLast c i arg2 harg2 arg3 harg3 arg4 harg4 arg5 harg5 arg6 harg6 arg7 harg7 arg8 harg8 arg9 harg9 hc0 hc1 x0 x1 x2 x3 x4 x5 xs).1 = k1_pay3 (accLast i x0 x1 xs) x3 x2 x4 x5 := by
  unfold runLast
  dsimp only
  sl_unfold_run_names
  rw [View.canon_unit_zero (S := S1024x128) zeros2, View.readCov_unit_zero (S := S1024x128) _ zeros2]
  simp only [View.readAt_eq_ld, harg2.read_unread, harg3.read_unread, harg4.read_unread, harg5.read_unread,
    harg6.read_unread, harg7.read_unread, harg9.read_unread,
    View.ld_unit_zero (S := S1024x5120) zeros2, View.ld_unit_zero (S := S1024x128) zeros2,
    View.ld_unit_zero (S := S1024x1) zeros2, View.ld_unit_zero (S := S1024x512) zeros2,
    View.ld_unit_zero (S := S512x128) zeros2, View.ld_unit_zero (S := S1x128) zeros2]
  rfl

end

end Cert.KernelIdeal.Hand.L2

end
-- ==== Proof.KI.Body1Point.lean ====
import proofs.«419373_j70497593197182_3_alg».proof.Proof.KI.Body1Vals
import proofs.«419373_j70497593197182_3_alg».proof.Proof.Gen.KernelIdeal.Regions
import Idealize.ShloMosaic.Lib.Pipeline.Frame

set_option maxRecDepth 16384

noncomputable section

namespace Cert.KernelIdeal.Hand.L2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → Valuation τ sig (Elt F)) (c : Dev nD)

def iblk (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev blkA (t : Fin cfg1.N) : Vec F S1024x5120 .bf16 := iblk V c 0 t
abbrev resP (t : Fin cfg1.N) : Vec F S10240x128 .bf16 := iblk V c 1 t
abbrev blkH (t : Fin cfg1.N) : Vec F S1024x512 .bf16 := iblk V c 2 t
abbrev blkD (t : Fin cfg1.N) : Vec F S1024x1 .f32 := iblk V c 3 t
abbrev blkW (t : Fin cfg1.N) : Vec F S512x128 .bf16 := iblk V c 4 t
abbrev blkB (t : Fin cfg1.N) : Vec F S1x128 .f32 := iblk V c 5 t

def accAfter : (n : ℕ) → n < cfg1.N → Vec F S1024x128 .f32
  | 0, hn => accFirst (grid1.coords ⟨0, hn⟩) (blkA V c ⟨0, hn⟩) (resP V c ⟨0, hn⟩)
  | n + 1, hn =>
    if (n + 1) % 2 = 0 then accFirst (grid1.coords ⟨n + 1, hn⟩) (blkA V c ⟨n + 1, hn⟩) (resP V c ⟨n + 1, hn⟩)
    else accLast (grid1.coords ⟨n + 1, hn⟩) (blkA V c ⟨n + 1, hn⟩) (resP V c ⟨n + 1, hn⟩) (accAfter n (Nat.lt_of_succ_lt hn))

theorem accAfter_even (t : Fin cfg1.N) (h : t.val % 2 = 0) :
    accAfter V c t.val t.isLt = accFirst (grid1.coords t) (blkA V c t) (resP V c t) := by
  obtain ⟨n, hn⟩ := t
  cases n with
  | zero => rfl
  | succ n => exact if_pos h

theorem accAfter_odd (t : Fin cfg1.N) (h : t.val % 2 = 1) :
    accAfter V c t.val t.isLt
      = accLast (grid1.coords t) (blkA V c t) (resP V c t) (accAfter V c (t.val - 1) (Nat.lt_of_le_of_lt (Nat.sub_le _ _) t.isLt)) := by
  obtain ⟨n, hn⟩ := t
  cases n with
  | zero => exact (by exfalso; have h' : 0 % 2 = 1 := h; omega)
  | succ n => exact if_neg (fun h0 : (n + 1) % 2 = 0 => by have h1 : (n + 1) % 2 = 1 := h; omega)

def outAfter (t : Fin cfg1.N) : Vec F S1024x128 .f32 :=
  k1_pay3 (accAfter V c t.val t.isLt) (blkD V c t) (blkH V c t) (blkW V c t) (blkB V c t)

def PhiAcc : (n : ℕ) → n ≤ cfg1.N → sProp 𝕄
  | 0, _ => Pipeline.scopedRest (Ix := Unit) (Name := ℕ) (U := UR sig nD τ) (Lvl := ℕ) (Val := Elt F) spec1 c
  | n + 1, hn => iprop(owns (c : Thread nD τ) accM fullShare (accAfter V c n hn) ∗ others c)

theorem PhiAcc_zero (n : ℕ) (h : n ≤ cfg1.N) (hz : n = 0) :
    PhiAcc V c n h = iprop((∃ d, owns (c : Thread nD τ) accM fullShare d) ∗ others c) := by
  subst hz; exact scopedRest_acc c

theorem PhiAcc_succ (n : ℕ) (hn : n < cfg1.N) :
    PhiAcc V c (n + 1) hn = iprop(owns (c : Thread nD τ) accM fullShare (accAfter V c n hn) ∗ others c) := rfl

theorem PhiAcc_pos (n : ℕ) (h : n ≤ cfg1.N) (hz : n ≠ 0) :
    PhiAcc V c n h = iprop(owns (c : Thread nD τ) accM fullShare (accAfter V c (n - 1) (by omega)) ∗ others c) := by
  cases n with
  | zero => exact absurd rfl hz
  | succ n => rfl

/-- Before any point the invariant holds the accumulator at some contents. -/
theorem PhiAcc_acc (n : ℕ) (h : n ≤ cfg1.N) :
    PhiAcc V c n h ⊢ iprop((∃ d, owns (c : Thread nD τ) accM fullShare d) ∗ others c) := by
  cases n with
  | zero => rw [PhiAcc_zero V c 0 h rfl]
  | succ n =>
    rw [PhiAcc_succ]
    iintro ⟨HS, Hoth⟩
    isplitl [HS]
    · iexists _; iexact HS
    iexact Hoth

def pointData : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outAfter V c t
  Φ t := PhiAcc V c t.val (Nat.le_of_lt_succ t.isLt)
  q _ := fullShare
  owed _ := 0

theorem pointData_A (w : Fin cfg1.W) : (pointData V c).A w = V c (Pipeline.arrRef spec1 w) := by
  dsimp only [pointData]

theorem pointData_q (w : Fin cfg1.W) : (pointData V c).q w = fullShare := by dsimp only [pointData]

theorem pointData_owed (t : Fin (cfg1.N + 1)) : (pointData V c).owed t = 0 := by dsimp only [pointData]

theorem pointData_recorded (t : Fin (cfg1.N + 1)) : (pointData V c).recorded t = Set.univ := by dsimp only [pointData]

theorem Phi_castSucc (t : Fin cfg1.N) : (pointData V c).Φ t.castSucc = PhiAcc V c t.val (Nat.le_of_lt t.isLt) := by
  dsimp only [pointData]; simp only [Fin.coe_castSucc]

theorem after_0 (t : Fin cfg1.N) : (pointData V c).after 0 t = iblk V c 0 t := by dsimp only [pointData]
theorem after_1 (t : Fin cfg1.N) : (pointData V c).after 1 t = iblk V c 1 t := by dsimp only [pointData]
theorem after_2 (t : Fin cfg1.N) : (pointData V c).after 2 t = iblk V c 2 t := by dsimp only [pointData]
theorem after_3 (t : Fin cfg1.N) : (pointData V c).after 3 t = iblk V c 3 t := by dsimp only [pointData]
theorem after_4 (t : Fin cfg1.N) : (pointData V c).after 4 t = iblk V c 4 t := by dsimp only [pointData]
theorem after_5 (t : Fin cfg1.N) : (pointData V c).after 5 t = iblk V c 5 t := by dsimp only [pointData]
theorem after_6 (t : Fin cfg1.N) : (pointData V c).after 6 t = outAfter V c t := by dsimp only [pointData]

theorem before_0 (t : Fin cfg1.N) (d) : (pointData V c).before 0 t d = iblk V c 0 t :=
  ((pointData V c).before_in_eq_fetched 0 rfl (fun _ => rfl) (fun _ _ _ => rfl)
    (fun t => by rw [after_0]; unfold Dat.blockOf iblk; rw [pointData_A]; try rfl) t d).trans
    (by unfold Dat.fetched Dat.blockOf iblk; rw [pointData_A]; try rfl)
theorem before_1 (t : Fin cfg1.N) (d) : (pointData V c).before 1 t d = iblk V c 1 t :=
  ((pointData V c).before_in_eq_fetched 1 rfl (fun _ => rfl) (fun _ _ _ => rfl)
    (fun t => by rw [after_1]; unfold Dat.blockOf iblk; rw [pointData_A]; try rfl) t d).trans
    (by unfold Dat.fetched Dat.blockOf iblk; rw [pointData_A]; try rfl)
theorem before_2 (t : Fin cfg1.N) (d) : (pointData V c).before 2 t d = iblk V c 2 t :=
  ((pointData V c).before_in_eq_fetched 2 rfl (fun _ => rfl) (fun _ _ _ => rfl)
    (fun t => by rw [after_2]; unfold Dat.blockOf iblk; rw [pointData_A]; try rfl) t d).trans
    (by unfold Dat.fetched Dat.blockOf iblk; rw [pointData_A]; try rfl)
theorem before_3 (t : Fin cfg1.N) (d) : (pointData V c).before 3 t d = iblk V c 3 t :=
  ((pointData V c).before_in_eq_fetched 3 rfl (fun _ => rfl) (fun _ _ _ => rfl)
    (fun t => by rw [after_3]; unfold Dat.blockOf iblk; rw [pointData_A]; try rfl) t d).trans
    (by unfold Dat.fetched Dat.blockOf iblk; rw [pointData_A]; try rfl)
theorem before_4 (t : Fin cfg1.N) (d) : (pointData V c).before 4 t d = iblk V c 4 t :=
  ((pointData V c).before_in_eq_fetched 4 rfl (fun _ => rfl) (fun _ _ _ => rfl)
    (fun t => by rw [after_4]; unfold Dat.blockOf iblk; rw [pointData_A]; try rfl) t d).trans
    (by unfold Dat.fetched Dat.blockOf iblk; rw [pointData_A]; try rfl)
theorem before_5 (t : Fin cfg1.N) (d) : (pointData V c).before 5 t d = iblk V c 5 t :=
  ((pointData V c).before_in_eq_fetched 5 rfl (fun _ => rfl) (fun _ _ _ => rfl)
    (fun t => by rw [after_5]; unfold Dat.blockOf iblk; rw [pointData_A]; try rfl) t d).trans
    (by unfold Dat.fetched Dat.blockOf iblk; rw [pointData_A]; try rfl)

def bodyPre (t : Fin cfg1.N) : sProp 𝕄 :=
  iprop((pointData V c).Φ t.castSucc ∗ (pointData V c).owesAt () t.castSucc
    ∗ (∃ d, owns (c : Thread nD τ) (ms1_0 t) fullShare ((pointData V c).before 0 t d))
    ∗ (∃ d, owns (c : Thread nD τ) (ms1_1 t) fullShare ((pointData V c).before 1 t d))
    ∗ (∃ d, owns (c : Thread nD τ) (ms1_2 t) fullShare ((pointData V c).before 2 t d))
    ∗ (∃ d, owns (c : Thread nD τ) (ms1_3 t) fullShare ((pointData V c).before 3 t d))
    ∗ (∃ d, owns (c : Thread nD τ) (ms1_4 t) fullShare ((pointData V c).before 4 t d))
    ∗ (∃ d, owns (c : Thread nD τ) (ms1_5 t) fullShare ((pointData V c).before 5 t d))
    ∗ (∃ d, owns (c : Thread nD τ) (ms1_6 t) fullShare ((pointData V c).before 6 t d)))

def bodyPost (t : Fin cfg1.N) : sProp 𝕄 :=
  iprop((pointData V c).Φ t.succ ∗ (pointData V c).owesAt () t.succ
    ∗ (pointData V c).leavesExact 0 t
    ∗ (pointData V c).leavesExact 1 t
    ∗ (pointData V c).leavesExact 2 t
    ∗ (pointData V c).leavesExact 3 t
    ∗ (pointData V c).leavesExact 4 t
    ∗ (pointData V c).leavesExact 5 t
    ∗ (pointData V c).leavesExact 6 t)

theorem leaves_0 (t : Fin cfg1.N) :
    (pointData V c).leavesExact 0 t = owns (c : Thread nD τ) (ms1_0 t) fullShare (iblk V c 0 t) := by
  unfold Dat.leavesExact; rw [show cfg1.idle 0 (grid1.coords t) = false from rfl, after_0]
theorem leaves_1 (t : Fin cfg1.N) :
    (pointData V c).leavesExact 1 t = owns (c : Thread nD τ) (ms1_1 t) fullShare (iblk V c 1 t) := by
  unfold Dat.leavesExact; rw [show cfg1.idle 1 (grid1.coords t) = false from rfl, after_1]
theorem leaves_2 (t : Fin cfg1.N) :
    (pointData V c).leavesExact 2 t = owns (c : Thread nD τ) (ms1_2 t) fullShare (iblk V c 2 t) := by
  unfold Dat.leavesExact; rw [show cfg1.idle 2 (grid1.coords t) = false from rfl, after_2]
theorem leaves_3 (t : Fin cfg1.N) :
    (pointData V c).leavesExact 3 t = owns (c : Thread nD τ) (ms1_3 t) fullShare (iblk V c 3 t) := by
  unfold Dat.leavesExact; rw [show cfg1.idle 3 (grid1.coords t) = false from rfl, after_3]
theorem leaves_4 (t : Fin cfg1.N) :
    (pointData V c).leavesExact 4 t = owns (c : Thread nD τ) (ms1_4 t) fullShare (iblk V c 4 t) := by
  unfold Dat.leavesExact; rw [show cfg1.idle 4 (grid1.coords t) = false from rfl, after_4]
theorem leaves_5 (t : Fin cfg1.N) :
    (pointData V c).leavesExact 5 t = owns (c : Thread nD τ) (ms1_5 t) fullShare (iblk V c 5 t) := by
  unfold Dat.leavesExact; rw [show cfg1.idle 5 (grid1.coords t) = false from rfl, after_5]

set_option maxHeartbeats 4800000 in

/-- Every grid point of layer 2 meets its obligation, by the same split into even and odd points. -/
theorem sound_body (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (pointData V c).owesAt () t.succ = (pointData V c).owesAt () t.castSucc from rfl]
  rw [show (pointData V c).Φ t.succ = PhiAcc V c (t.val + 1) t.isLt from rfl, PhiAcc_succ]
  rw [leaves_0, leaves_1, leaves_2, leaves_3, leaves_4, leaves_5]
  have hN : t.val < 20 := lt_of_lt_of_eq t.isLt (show cfg1.N = 20 from N_1)
  by_cases h : t.val % 2 = 0
  · have hc0 : isFirstHalf (grid1.coords t) := (isFirstHalf_iff t).mpr h
    have hc1 : ¬isLastHalf (grid1.coords t) := fun hh => by have := (isLastHalf_iff t).mp hh; omega
    rw [Dat.leavesExact_idle (pointData V c) 6 t (outIdle_even t h) (outNoFlush_even t h)]
    rw [accAfter_even V c t h]
    rw [Phi_castSucc V c t]
    refine (sep_mono (PhiAcc_acc V c _ _) .rfl).trans ?_
    iintro ⟨⟨HS, Hoth⟩, Ho, ⟨%d0, H0⟩, ⟨%d1, H1⟩, ⟨%d2, H2⟩, ⟨%d3, H3⟩, ⟨%d4, H4⟩, ⟨%d5, H5⟩, ⟨%d6, H6⟩⟩
    iapply ((runFirst c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) accM (Memref.isWhole_whole _) hc0 hc1 (blkA V c t) (resP V c t)).2 Set.univ _)
    iframe H0 H1 HS
    iintro ⟨H0, H1, ⟨%es, HS⟩⟩
    isplitl [HS Hoth]
    · isplitl [HS]
      · unfold owns; iexists _; isplitr
        swap; · iexact HS
        ipureintro
        exact (View.read_writes_eq_canon _ _ _ (cover_first c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) accM (Memref.isWhole_whole _) hc0 hc1 (blkA V c t) (resP V c t))).trans (canon_first c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) accM (Memref.isWhole_whole _) hc0 hc1 (blkA V c t) (resP V c t))
      iexact Hoth
    iframe Ho H0 H1 H2 H3 H4 H5
    iexists _; iexact H6
  · have h1 : t.val % 2 = 1 := by omega
    have hc0 : ¬isFirstHalf (grid1.coords t) := fun hh => h ((isFirstHalf_iff t).mp hh)
    have hc1 : isLastHalf (grid1.coords t) := (isLastHalf_iff t).mpr h1
    have hz : t.val ≠ 0 := by omega
    rw [show (pointData V c).leavesExact 6 t = owns (c : Thread nD τ) (ms1_6 t) fullShare ((pointData V c).after 6 t) from by
      unfold Dat.leavesExact; rw [outLive_odd t h1], after_6]
    unfold outAfter
    rw [accAfter_odd V c t h1]
    rw [Phi_castSucc V c t, PhiAcc_pos V c _ _ hz]
    iintro ⟨⟨HS, Hoth⟩, Ho, ⟨%d0, H0⟩, ⟨%d1, H1⟩, ⟨%d2, H2⟩, ⟨%d3, H3⟩, ⟨%d4, H4⟩, ⟨%d5, H5⟩, ⟨%d6, H6⟩⟩
    iapply ((runLast c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) accM (Memref.isWhole_whole _) hc0 hc1 (blkA V c t) (resP V c t) (blkH V c t) (blkD V c t) (blkW V c t) (blkB V c t) (accAfter V c (t.val - 1) (Nat.lt_of_le_of_lt (Nat.sub_le _ _) t.isLt))).2.2 Set.univ _)
    iframe H0 H1 H2 H3 H4 H5
    isplitl [H6]; · iexists _; iexact H6
    isplitl [HS]; · iexact HS
    iintro ⟨H0, H1, H2, H3, H4, H5, ⟨%e6, H6⟩, ⟨%es, HS⟩⟩
    isplitl [HS Hoth]
    · isplitl [HS]
      · unfold owns; iexists _; isplitr
        swap; · iexact HS
        ipureintro
        exact (View.read_writes_eq_canon _ _ _ (cover_last_acc c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) accM (Memref.isWhole_whole _) hc0 hc1 (blkA V c t) (resP V c t) (blkH V c t) (blkD V c t) (blkW V c t) (blkB V c t) (accAfter V c (t.val - 1) (Nat.lt_of_le_of_lt (Nat.sub_le _ _) t.isLt)))).trans (canon_last_acc c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) accM (Memref.isWhole_whole _) hc0 hc1 (blkA V c t) (resP V c t) (blkH V c t) (blkD V c t) (blkW V c t) (blkB V c t) (accAfter V c (t.val - 1) (Nat.lt_of_le_of_lt (Nat.sub_le _ _) t.isLt)))
      iexact Hoth
    iframe Ho H0 H1 H2 H3 H4 H5
    unfold owns; iexists _; isplitr
    swap; · iexact H6
    ipureintro
    exact (View.read_writes_eq_canon _ _ _ (cover_last_out c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) accM (Memref.isWhole_whole _) hc0 hc1 (blkA V c t) (resP V c t) (blkH V c t) (blkD V c t) (blkW V c t) (blkB V c t) (accAfter V c (t.val - 1) (Nat.lt_of_le_of_lt (Nat.sub_le _ _) t.isLt)))).trans (canon_last_out c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) accM (Memref.isWhole_whole _) hc0 hc1 (blkA V c t) (resP V c t) (blkH V c t) (blkD V c t) (blkW V c t) (blkB V c t) (accAfter V c (t.val - 1) (Nat.lt_of_le_of_lt (Nat.sub_le _ _) t.isLt)))

theorem body : BodyObligation (pointData V c) (defs₀ (F := F)) Variants.none () Set.univ := fun t => by
  rw [bigSep_W1, bigSep_W1]
  exact sound_body V c t

theorem Phi_in :
    (Pipeline.scopedRest (Ix := Unit) (Name := ℕ) (U := UR sig nD τ) (Lvl := ℕ) (Val := Elt F) spec1 c : sProp 𝕄)
      ⊢ (pointData V c).Φ 0 := by
  rw [show (pointData V c).Φ 0 = PhiAcc V c 0 (Nat.zero_le _) from rfl]
  exact Idealize.SL.BI.Entails.refl _

theorem Phi_out :
    (pointData V c).Φ (Fin.last cfg1.N)
      ⊢ (Pipeline.scopedRest (Ix := Unit) (Name := ℕ) (U := UR sig nD τ) (Lvl := ℕ) (Val := Elt F) spec1 c : sProp 𝕄) := by
  rw [show (pointData V c).Φ (Fin.last cfg1.N) = PhiAcc V c (Fin.last cfg1.N).val (Nat.le_of_lt_succ (Fin.last cfg1.N).isLt) from rfl,
    scopedRest_acc]
  exact PhiAcc_acc V c _ _

end Cert.KernelIdeal.Hand.L2

end
-- ==== Proof.KI.Body1Value.lean ====
import proofs.«419373_j70497593197182_3_alg».proof.Proof.KI.Body1Point
import proofs.«419373_j70497593197182_3_alg».proof.Proof.KSpec
import Idealize.ShloMosaic.Lib.Pipeline.Value
import Idealize.ShloMosaic.Lib.ValueIdx

set_option maxRecDepth 16384

noncomputable section

namespace Cert.KernelIdeal.Hand.L2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → Valuation τ sig (Elt F)) (c : Dev nD)

abbrev arrA : FVec F S10240x10240 .bf16 := V c main_v20
abbrev arrP : FVec F S10240x128 .bf16 := V c main_v46_1
abbrev arrH : FVec F S10240x512 .bf16 := V c main_v46_0
abbrev arrD : FVec F S10240x1 .f32 := V c main_v34
abbrev arrW : FVec F S512x128 .bf16 := V c main_v43
abbrev arrB : FVec F S1x128 .f32 := V c main_v45

theorem idx_cnt : ∀ t : Fin cfg1.N, win1_0.index t (0 : Fin 2) = t.val / 2 ∧ win1_0.index t (1 : Fin 2) = t.val % 2 :=
  (by decide +kernel : ∀ t : Fin grid1.N, win1_0.index t (0 : Fin 2) = t.val / 2 ∧ win1_0.index t (1 : Fin 2) = t.val % 2)
theorem idx_res : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idx_hid : ∀ t : Fin cfg1.N, win1_2.index t (0 : Fin 2) = t.val / 2 ∧ win1_2.index t (1 : Fin 2) = 0 :=
  (by decide +kernel : ∀ t : Fin grid1.N, win1_2.index t (0 : Fin 2) = t.val / 2 ∧ win1_2.index t (1 : Fin 2) = 0)
theorem idx_deg : ∀ t : Fin cfg1.N, win1_3.index t (0 : Fin 2) = t.val / 2 ∧ win1_3.index t (1 : Fin 2) = 0 :=
  (by decide +kernel : ∀ t : Fin grid1.N, win1_3.index t (0 : Fin 2) = t.val / 2 ∧ win1_3.index t (1 : Fin 2) = 0)
theorem idx_wts : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem idx_bias : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
theorem idx_out : ∀ t : Fin cfg1.N, win1_6.index t (0 : Fin 2) = t.val / 2 ∧ win1_6.index t (1 : Fin 2) = 0 :=
  (by decide +kernel : ∀ t : Fin grid1.N, win1_6.index t (0 : Fin 2) = t.val / 2 ∧ win1_6.index t (1 : Fin 2) = 0)

theorem off_half : ∀ t : Fin cfg1.N, k1_off1 (grid1.coords t) (0 : Fin 2) = 5120 * (t.val % 2) ∧ k1_off1 (grid1.coords t) (1 : Fin 2) = 0 :=
  (by decide +kernel : ∀ t : Fin grid1.N, k1_off1 (grid1.coords t) (0 : Fin 2) = 5120 * (t.val % 2) ∧ k1_off1 (grid1.coords t) (1 : Fin 2) = 0)

theorem blkA_eq (t : Fin cfg1.N) (m : Fin 10) (k : Fin 2) (hm : t.val / 2 = m.val) (hk : t.val % 2 = k.val) :
    blkA V c t = KSpec.blkA (arrA V c) m k := by
  obtain ⟨e0, e1⟩ := idx_cnt t
  funext y
  show arrA V c (((cfg1.win 0).blk t).view.emb y)
    = arrA V c (ix2 (KSpec.rowOf m ⟨(y 0).val, idx2_lt0 y⟩) (KSpec.redOf k ⟨(y 1).val, idx2_lt1 y⟩))
  refine congrArg (arrA V c) ?_
  funext a; apply Fin.ext
  match a with
  | ⟨0, _⟩ => show win1_0.index t (0 : Fin 2) * 1024 + 1 * (y 0).val = 1024 * m.val + (y 0).val; omega
  | ⟨1, _⟩ => show win1_0.index t (1 : Fin 2) * 5120 + 1 * (y 1).val = 5120 * k.val + (y 1).val; omega

theorem resP_eq (t : Fin cfg1.N) : resP V c t = arrP V c := by
  obtain ⟨e0, e1⟩ := idx_res t
  funext y
  show arrP V c (((cfg1.win 1).blk t).view.emb y) = arrP V c y
  refine congrArg (arrP V c) ?_
  funext a; apply Fin.ext
  match a with
  | ⟨0, _⟩ => show win1_1.index t (0 : Fin 2) * 10240 + 1 * (y 0).val = (y 0).val; omega
  | ⟨1, _⟩ => show win1_1.index t (1 : Fin 2) * 128 + 1 * (y 1).val = (y 1).val; omega

theorem blkH_eq (t : Fin cfg1.N) (m : Fin 10) (hm : t.val / 2 = m.val) : blkH V c t = KSpec.rows512 (arrH V c) m := by
  obtain ⟨e0, e1⟩ := idx_hid t
  funext y
  show arrH V c (((cfg1.win 2).blk t).view.emb y)
    = arrH V c (ix2 (KSpec.rowOf m ⟨(y 0).val, idx2_lt0 y⟩) ⟨(y 1).val, idx2_lt1 y⟩)
  refine congrArg (arrH V c) ?_
  funext a; apply Fin.ext
  match a with
  | ⟨0, _⟩ => show win1_2.index t (0 : Fin 2) * 1024 + 1 * (y 0).val = 1024 * m.val + (y 0).val; omega
  | ⟨1, _⟩ => show win1_2.index t (1 : Fin 2) * 512 + 1 * (y 1).val = (y 1).val; omega

theorem blkD_eq (t : Fin cfg1.N) (m : Fin 10) (hm : t.val / 2 = m.val) : blkD V c t = KSpec.rows1 (arrD V c) m := by
  obtain ⟨e0, e1⟩ := idx_deg t
  funext y
  show arrD V c (((cfg1.win 3).blk t).view.emb y)
    = arrD V c (ix2 (KSpec.rowOf m ⟨(y 0).val, idx2_lt0 y⟩) ⟨(y 1).val, idx2_lt1 y⟩)
  refine congrArg (arrD V c) ?_
  funext a; apply Fin.ext
  match a with
  | ⟨0, _⟩ => show win1_3.index t (0 : Fin 2) * 1024 + 1 * (y 0).val = 1024 * m.val + (y 0).val; omega
  | ⟨1, _⟩ => show win1_3.index t (1 : Fin 2) * 1 + 1 * (y 1).val = (y 1).val; omega

theorem blkW_eq (t : Fin cfg1.N) : blkW V c t = arrW V c := by
  obtain ⟨e0, e1⟩ := idx_wts t
  funext y
  show arrW V c (((cfg1.win 4).blk t).view.emb y) = arrW V c y
  refine congrArg (arrW V c) ?_
  funext a; apply Fin.ext
  match a with
  | ⟨0, _⟩ => show win1_4.index t (0 : Fin 2) * 512 + 1 * (y 0).val = (y 0).val; omega
  | ⟨1, _⟩ => show win1_4.index t (1 : Fin 2) * 128 + 1 * (y 1).val = (y 1).val; omega

theorem blkB_eq (t : Fin cfg1.N) : blkB V c t = arrB V c := by
  obtain ⟨e0, e1⟩ := idx_bias t
  funext y
  show arrB V c (((cfg1.win 5).blk t).view.emb y) = arrB V c y
  refine congrArg (arrB V c) ?_
  funext a; apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

theorem half_eq (t : Fin cfg1.N) (k : Fin 2) (hk : t.val % 2 = k.val) (X : FVec F S10240x128 .bf16) :
    halfAt (grid1.coords t) X = KSpec.half128 X k := by
  obtain ⟨e0, e1⟩ := off_half t
  unfold halfAt
  funext y
  show X ((Rect.unit (s := S10240x128) (k1_off1 (grid1.coords t)) S5120x128.size (k1_off1_inb (grid1.coords t))).emb y)
    = X (ix2 (KSpec.redOf k ⟨(y 0).val, idx2_lt0 y⟩) ⟨(y 1).val, idx2_lt1 y⟩)
  refine congrArg X ?_
  funext a; apply Fin.ext
  match a with
  | ⟨0, _⟩ => show k1_off1 (grid1.coords t) (0 : Fin 2) + 1 * (y 0).val = 5120 * k.val + (y 0).val; omega
  | ⟨1, _⟩ => show k1_off1 (grid1.coords t) (1 : Fin 2) + 1 * (y 1).val = (y 1).val; omega

theorem acc_odd_eq (t : Fin cfg1.N) (h1 : t.val % 2 = 1) (m : Fin 10) (hm : t.val / 2 = m.val) :
    accAfter V c t.val t.isLt
      = KSpec.acc1 (KSpec.blkA (arrA V c) m 0) (KSpec.blkA (arrA V c) m 1) (KSpec.half128 (arrP V c) 0) (KSpec.half128 (arrP V c) 1) := by
  have hN : t.val < 20 := lt_of_lt_of_eq t.isLt (show cfg1.N = 20 from N_1)
  have hp : t.val - 1 < cfg1.N := Nat.lt_of_le_of_lt (Nat.sub_le _ _) t.isLt
  have e : accAfter V c (t.val - 1) hp
      = accFirst (grid1.coords ⟨t.val - 1, hp⟩) (blkA V c ⟨t.val - 1, hp⟩) (resP V c ⟨t.val - 1, hp⟩) :=
    accAfter_even V c ⟨t.val - 1, hp⟩ (by show (t.val - 1) % 2 = 0; omega)
  rw [accAfter_odd V c t h1, e]
  unfold accLast accFirst KSpec.acc1
  rw [blkA_eq V c t m 1 hm h1, resP_eq V c t, half_eq t 1 h1 (arrP V c),
    blkA_eq V c ⟨t.val - 1, hp⟩ m 0 (by show (t.val - 1) / 2 = m.val; omega) (by show (t.val - 1) % 2 = 0; omega),
    resP_eq V c ⟨t.val - 1, hp⟩, half_eq ⟨t.val - 1, hp⟩ 0 (by show (t.val - 1) % 2 = 0; omega) (arrP V c)]

theorem G_out_block (A : FVec F S10240x10240 .bf16) (Pm : FVec F S10240x128 .bf16) (H : FVec F S10240x512 .bf16)
    (D : FVec F S10240x1 .f32) (Wr : FVec F S512x128 .bf16) (b : FVec F S1x128 .f32) (m : Fin 10)
    (i : S10240x128.Idx) (y : S1024x128.Idx) (h0 : (i 0).val = 1024 * m.val + (y 0).val) (h1 : (i 1).val = (y 1).val) :
    KSpec.G_out A Pm H D Wr b i
      = KSpec.ob (KSpec.blkA A m 0) (KSpec.blkA A m 1) (KSpec.half128 Pm 0) (KSpec.half128 Pm 1) (KSpec.rows1 D m)
          (KSpec.rows512 H m) Wr b y := by
  have hy0 : (y 0).val < 1024 := idx2_lt0 y
  have hb : KSpec.blockOf ⟨(i 0).val, idx2_lt0 i⟩ = m := Fin.ext (by show (i 0).val / 1024 = m.val; omega)
  have hy : ix2 (KSpec.inBlock ⟨(i 0).val, idx2_lt0 i⟩) ⟨(i 1).val, idx2_lt1 i⟩ = y := by
    funext a
    match a with
    | ⟨0, _⟩ => exact Fin.ext (by show (i 0).val % 1024 = (y 0).val; omega)
    | ⟨1, _⟩ => exact Fin.ext h1
  show KSpec.ob (KSpec.blkA A (KSpec.blockOf ⟨(i 0).val, idx2_lt0 i⟩) 0) (KSpec.blkA A (KSpec.blockOf ⟨(i 0).val, idx2_lt0 i⟩) 1)
      (KSpec.half128 Pm 0) (KSpec.half128 Pm 1) (KSpec.rows1 D (KSpec.blockOf ⟨(i 0).val, idx2_lt0 i⟩))
      (KSpec.rows512 H (KSpec.blockOf ⟨(i 0).val, idx2_lt0 i⟩)) Wr b
      (ix2 (KSpec.inBlock ⟨(i 0).val, idx2_lt0 i⟩) ⟨(i 1).val, idx2_lt1 i⟩) = _
  rw [hb, hy]

theorem flushed_eq (t : Fin cfg1.N) (hf : (cfg1.win 6).flush t = true) :
    (pointData V c).flushed 6 t
      = ((cfg1.win 6).blk t).view.read (Elt F)
          (KSpec.G_out (arrA V c) (arrP V c) (arrH V c) (arrD V c) (arrW V c) (arrB V c)) := by
  have h1 : t.val % 2 = 1 := (flush1_6 t).mp hf
  have hN : t.val < 20 := lt_of_lt_of_eq t.isLt (show cfg1.N = 20 from N_1)
  obtain ⟨e0, e1⟩ := idx_out t
  show (cfg1.win 6).cut (grid1.coords t) ((pointData V c).after 6 t) = _
  rw [after_6]
  unfold outAfter
  rw [acc_odd_eq V c t h1 ⟨t.val / 2, by omega⟩ rfl, blkD_eq V c t ⟨t.val / 2, by omega⟩ rfl,
    blkH_eq V c t ⟨t.val / 2, by omega⟩ rfl, blkW_eq V c t, blkB_eq V c t]
  funext y
  show KSpec.ob (KSpec.blkA (arrA V c) ⟨t.val / 2, by omega⟩ 0) (KSpec.blkA (arrA V c) ⟨t.val / 2, by omega⟩ 1)
      (KSpec.half128 (arrP V c) 0) (KSpec.half128 (arrP V c) 1) (KSpec.rows1 (arrD V c) ⟨t.val / 2, by omega⟩)
      (KSpec.rows512 (arrH V c) ⟨t.val / 2, by omega⟩) (arrW V c) (arrB V c) y
    = KSpec.G_out (arrA V c) (arrP V c) (arrH V c) (arrD V c) (arrW V c) (arrB V c) (((cfg1.win 6).blk t).view.emb y)
  refine (G_out_block (arrA V c) (arrP V c) (arrH V c) (arrD V c) (arrW V c) (arrB V c) ⟨t.val / 2, by omega⟩
    (((cfg1.win 6).blk t).view.emb y) y ?_ ?_).symm
  · show win1_6.index t (0 : Fin 2) * 1024 + 1 * (y 0).val = 1024 * (t.val / 2) + (y 0).val; omega
  · show win1_6.index t (1 : Fin 2) * 128 + 1 * (y 1).val = (y 1).val; omega

theorem mem_blk (t : Fin cfg1.N) (i : S10240x128.Idx) :
    i ∈ ((cfg1.win 6).blk t).view.set
      ↔ ∀ a : Fin 2, win1_6.index t a * S1024x128.size a ≤ (i a).val ∧ (i a).val < win1_6.index t a * S1024x128.size a + S1024x128.size a := by
  show i ∈ ((View.whole main_v47).slice (win1_6.rect t)).set ↔ _
  rw [View.set_slice_whole, Rect.mem_set_unit]
  exact Iff.rfl

theorem covered (i : S10240x128.Idx) :
    ∃ t : Fin cfg1.N, (cfg1.win 6).flush t = true ∧ i ∈ ((cfg1.win 6).blk t).view.set := by
  have hi0 : (i 0).val < 10240 := idx2_lt0 i
  have hi1 : (i 1).val < 128 := idx2_lt1 i
  have hlt : 2 * ((i 0).val / 1024) + 1 < cfg1.N := by rw [show cfg1.N = 20 from N_1]; omega
  refine ⟨⟨2 * ((i 0).val / 1024) + 1, hlt⟩, (flush1_6 _).mpr (by show (2 * ((i 0).val / 1024) + 1) % 2 = 1; omega), ?_⟩
  obtain ⟨e0, e1⟩ := idx_out ⟨2 * ((i 0).val / 1024) + 1, hlt⟩
  have e0' : win1_6.index ⟨2 * ((i 0).val / 1024) + 1, hlt⟩ (0 : Fin 2) = (2 * ((i 0).val / 1024) + 1) / 2 := e0
  rw [mem_blk]
  intro a
  match a with
  | ⟨0, _⟩ =>
    show win1_6.index ⟨2 * ((i 0).val / 1024) + 1, hlt⟩ (0 : Fin 2) * 1024 ≤ (i 0).val
      ∧ (i 0).val < win1_6.index ⟨2 * ((i 0).val / 1024) + 1, hlt⟩ (0 : Fin 2) * 1024 + 1024
    omega
  | ⟨1, _⟩ =>
    show win1_6.index ⟨2 * ((i 0).val / 1024) + 1, hlt⟩ (1 : Fin 2) * 128 ≤ (i 1).val
      ∧ (i 1).val < win1_6.index ⟨2 * ((i 0).val / 1024) + 1, hlt⟩ (1 : Fin 2) * 128 + 128
    omega

/-- After the region the output array is the whole-array function of the arrays the region was entered with. -/
theorem arrAt_out :
    (pointData V c).arrAt 6 cfg1.N
      = KSpec.G_out (V c main_v20) (V c main_v46_1) (V c main_v46_0) (V c main_v34) (V c main_v43) (V c main_v45) :=
  (pointData V c).arrAt_eq_of_cover 6 _ (fun t hf => flushed_eq V c t hf) covered

end Cert.KernelIdeal.Hand.L2

end
-- ==== Proof.KI.Launch.lean ====
import proofs.«419373_j70497593197182_3_alg».proof.Proof.KI.Region0
import proofs.«419373_j70497593197182_3_alg».proof.Proof.KI.Body1Value
import Idealize.ShloMosaic.Lib.Pipeline.Kit
import Idealize.ShloMosaic.Lib.Pipeline.Regions
import Idealize.ShloMosaic.Lib.Pipeline.RegionsLoop

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def outs0 (r : Ref sig .tc) (c : Dev nD) : Buf (Elt F) ((c : Thread nD τ).loc r) :=
  if h : r = main_v46_0 then h ▸ ((dat0 (Gen.V9 m) c).arrAt 8 cfg0.N : Buf (Elt F) ((c : Thread nD τ).loc main_v46_0))
  else if h : r = main_v46_1 then h ▸ ((dat0 (Gen.V9 m) c).arrAt 9 cfg0.N : Buf (Elt F) ((c : Thread nD τ).loc main_v46_1))
  else Gen.V9 m c r

theorem outs0_h (c : Dev nD) : outs0 m main_v46_0 c = (dat0 (Gen.V9 m) c).arrAt 8 cfg0.N := by
  unfold outs0; rw [dif_pos rfl]

theorem outs0_p (c : Dev nD) : outs0 m main_v46_1 c = (dat0 (Gen.V9 m) c).arrAt 9 cfg0.N := by
  unfold outs0; rw [dif_neg (by decide), dif_pos rfl]

def outs : Gen.Outs (F := F) := fun J r c =>
  if J = 10 then outs0 m r c
  else if h : r = main_v47 then h ▸ ((L2.pointData (Gen.V10 m fun _ => outs0 m) c).arrAt 6 cfg1.N : Buf (Elt F) ((c : Thread nD τ).loc main_v47))
  else Gen.V9 m c r

theorem outs_10 (r : Ref sig .tc) (c : Dev nD) : outs m 10 r c = outs0 m r c := by
  unfold outs; rw [if_pos rfl]

theorem V10_outs (c : Dev nD) : Gen.V10 m (outs m) c = Gen.V10 m (fun _ => outs0 m) c := by
  unfold Gen.V10; rw [outs_10, outs_10]

theorem outs_11 (c : Dev nD) : outs m 11 main_v47 c = (L2.pointData (Gen.V10 m (outs m)) c).arrAt 6 cfg1.N := by
  rw [show Gen.V10 m (outs m) = Gen.V10 m (fun _ => outs0 m) from funext (V10_outs m)]
  unfold outs; rw [if_neg (by decide), dif_pos rfl]

def pdats : (p : Fin 2) → (c : Dev nD) → Dat τ (Elt F) Unit ℕ (UR sig nD τ) ℕ (cfgs p) c
  | ⟨0, _⟩ => dat0 (Gen.V9 m)
  | ⟨1, _⟩ => L2.pointData (Gen.V10 m (outs m))

theorem V10_h (c : Dev nD) : Gen.V10 m (outs m) c main_v46_0 = (dat0 (Gen.V9 m) c).arrAt 8 cfg0.N := by
  unfold Gen.V10
  rw [Function.update_of_ne (StableHlo.devRef_ne_of_ne (by decide)), Function.update_self, outs_10, outs0_h]

theorem V10_p (c : Dev nD) : Gen.V10 m (outs m) c main_v46_1 = (dat0 (Gen.V9 m) c).arrAt 9 cfg0.N := by
  unfold Gen.V10
  rw [Function.update_self, outs_10, outs0_p]

theorem V11_o (c : Dev nD) : Gen.V11 m (outs m) c main_v47 = (L2.pointData (Gen.V10 m (outs m)) c).arrAt 6 cfg1.N := by
  unfold Gen.V11
  rw [Function.update_self, outs_11]

theorem arrImage0 : (Finset.univ.image (Pipeline.arrRef spec0) : Finset (Ref sig .tc))
    = ([main_v20, main_v36, main_v34, main_v37, main_v38, main_v39, main_v41, main_v46_0, main_v46_1] : List (Ref sig .tc)).toFinset := by decide

theorem share0 (V : (c : Dev nD) → Valuation τ sig (Elt F)) (c : Dev nD) (w : Fin cfg0.W) : (dat0 V c).share w = q0 w := by
  unfold Dat.share; rw [dat0_q]
  fin_cases w <;> rfl

theorem arrays0_eq (V : (c : Dev nD) → Valuation τ sig (Elt F)) (c : Dev nD)
    (G : (w : Fin cfg0.W) → Buf (Elt F) ((cfg0.win w).arr.view.loc (c : Thread nD τ))) :
    ((dat0 V c).arrays G : sProp 𝕄)
      = bigSep Finset.univ fun w : Fin 10 => (((c : Thread nD τ).loc (Pipeline.arrRef spec0 w)) ↦{q0 w} G w : sProp 𝕄) := by
  unfold Dat.arrays
  exact bigSep_congr fun w _ => by rw [(arr_whole0 w).set_eq_univ, share0]

theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v20) ↦{fullShare} W main_v20) ∗ (((c : Thread nD τ).loc main_v36) ↦{fullShare} W main_v36)
          ∗ (((c : Thread nD τ).loc main_v34) ↦{fullShare} W main_v34) ∗ (((c : Thread nD τ).loc main_v37) ↦{fullShare} W main_v37)
          ∗ (((c : Thread nD τ).loc main_v38) ↦{fullShare} W main_v38) ∗ (((c : Thread nD τ).loc main_v39) ↦{fullShare} W main_v39)
          ∗ (((c : Thread nD τ).loc main_v41) ↦{fullShare} W main_v41) ∗ (((c : Thread nD τ).loc main_v46_0) ↦{fullShare} W main_v46_0)
          ∗ (((c : Thread nD τ).loc main_v46_1) ↦{fullShare} W main_v46_1)) := by
  unfold Pipeline.arrBufs
  exact bigSep_eq_bigSepL_of_eq _ arrImage0 (by decide) _

theorem arrays0_chain (V : (c : Dev nD) → Valuation τ sig (Elt F)) (c : Dev nD) (W : Valuation τ sig (Elt F)) :
    ((dat0 V c).arrays (fun w => W (Pipeline.arrRef spec0 w)) : sProp 𝕄)
      = iprop((((c : Thread nD τ).loc main_v20) ↦{fullShare} W main_v20)
          ∗ (((c : Thread nD τ).loc main_v36) ↦{fullShare.left} W main_v36) ∗ (((c : Thread nD τ).loc main_v36) ↦{fullShare.right} W main_v36)
          ∗ (((c : Thread nD τ).loc main_v34) ↦{fullShare} W main_v34) ∗ (((c : Thread nD τ).loc main_v37) ↦{fullShare} W main_v37)
          ∗ (((c : Thread nD τ).loc main_v38) ↦{fullShare} W main_v38) ∗ (((c : Thread nD τ).loc main_v39) ↦{fullShare} W main_v39)
          ∗ (((c : Thread nD τ).loc main_v41) ↦{fullShare} W main_v41) ∗ (((c : Thread nD τ).loc main_v46_0) ↦{fullShare} W main_v46_0)
          ∗ (((c : Thread nD τ).loc main_v46_1) ↦{fullShare} W main_v46_1)) :=
  (arrays0_eq V c _).trans (bigSep_W0 _)

/-- One array is read through two windows: at entry its ownership is split in halves between them, and `exit0` rejoins
    the halves. -/
theorem entry0 (V : (c : Dev nD) → Valuation τ sig (Elt F)) (c : Dev nD) :
    (unscopedBufs c (fun b => V c b) : sProp 𝕄)
      ⊢ iprop((dat0 V c).arrays ((dat0 V c).arrAt · 0) ∗ Pipeline.unscopedRest spec0 c (fun b => V c b)) := by
  rw [show (unscopedBufs c _ : sProp 𝕄) = iprop(Pipeline.arrBufs spec0 c _ ∗ Pipeline.unscopedRest spec0 c _)
    from Pipeline.unscopedBufs_split₀ cfgs 0 winFacts₀0.arr_unscoped c _]
  refine sep_mono ?_ .rfl
  rw [show ((dat0 V c).arrAt · 0) = fun w => V c (Pipeline.arrRef spec0 w) from funext fun w => dat0_A V c w,
    arrays0_chain, arrBufs0_eq]
  iintro ⟨H20, H36, H34, H37, H38, H39, H41, Hh, Hp⟩
  ihave H := (pointsTo_share (PosShare.mem_left_op_right fullShare)).1 $$ H36
  icases H with ⟨H36l, H36r⟩
  iframe H20 H36l H36r H34 H37 H38 H39 H41 Hh
  iexact Hp

theorem exit0 (V V' : (c : Dev nD) → Valuation τ sig (Elt F)) (c : Dev nD)
    (hF : ∀ w, (dat0 V c).arrAt w cfg0.N = V' c (Pipeline.arrRef spec0 w))
    (hrest : ∀ b : Ref sig .tc, b ∉ Finset.univ.image (Pipeline.arrRef spec0) → V' c b = V c b) :
    iprop((dat0 V c).arrays ((dat0 V c).arrAt · cfg0.N) ∗ Pipeline.unscopedRest spec0 c (fun b => V c b))
      ⊢ (unscopedBufs c (fun b => V' c b) : sProp 𝕄) := by
  rw [show (unscopedBufs c _ : sProp 𝕄) = iprop(Pipeline.arrBufs spec0 c _ ∗ Pipeline.unscopedRest spec0 c _)
    from Pipeline.unscopedBufs_split₀ cfgs 0 winFacts₀0.arr_unscoped c _]
  refine sep_mono ?_ (Entails.of_eq ?_)
  · rw [show ((dat0 V c).arrAt · cfg0.N) = fun w => V' c (Pipeline.arrRef spec0 w) from funext hF, arrays0_chain, arrBufs0_eq]
    iintro ⟨H20, H36l, H36r, H34, H37, H38, H39, H41, Hh, Hp⟩
    ihave H36 := (pointsTo_share (PosShare.mem_left_op_right fullShare)).2 $$ [H36l H36r]
    · isplitl [H36l]; · iexact H36l
      iexact H36r
    iframe H20 H36 H34 H37 H38 H39 H41 Hh
    iexact Hp
  · unfold Pipeline.unscopedRest
    exact bigSep_congr fun b hb => by beta_reduce; rw [hrest b (Finset.mem_sdiff.mp hb).2]

theorem hF0_in (c : Dev nD) (w : Fin cfg0.W) (hin : (cfg0.win w).isOut = false)
    (hne : Pipeline.arrRef spec0 w ∉ ([main_v46_0, main_v46_1] : List (Ref sig .tc))) :
    (dat0 (Gen.V9 m) c).arrAt w cfg0.N = Gen.V10 m (outs m) c (Pipeline.arrRef spec0 w) :=
  ((dat0 (Gen.V9 m) c).arrAt_in w hin _).trans ((dat0_A _ c w).trans (Gen.V10_of m (outs m) c _ hne).symm)

theorem hF0 (c : Dev nD) (w : Fin cfg0.W) :
    (dat0 (Gen.V9 m) c).arrAt w cfg0.N = Gen.V10 m (outs m) c (Pipeline.arrRef spec0 w) := by
  fin_cases w
  exacts [hF0_in m c _ rfl (by decide), hF0_in m c _ rfl (by decide), hF0_in m c _ rfl (by decide), hF0_in m c _ rfl (by decide),
    hF0_in m c _ rfl (by decide), hF0_in m c _ rfl (by decide), hF0_in m c _ rfl (by decide), hF0_in m c _ rfl (by decide),
    (V10_h m c).symm, (V10_p m c).symm]

theorem hrest0 (c : Dev nD) (b : Ref sig .tc) (hb : b ∉ Finset.univ.image (Pipeline.arrRef spec0)) :
    Gen.V10 m (outs m) c b = Gen.V9 m c b :=
  Gen.V10_of m (outs m) c b fun h => hb (by
    rw [arrImage0]
    exact List.mem_toFinset.mpr ((by decide : ∀ x ∈ ([main_v46_0, main_v46_1] : List (Ref sig .tc)),
      x ∈ ([main_v20, main_v36, main_v34, main_v37, main_v38, main_v39, main_v41, main_v46_0, main_v46_1] : List (Ref sig .tc))) b h))

theorem share1 (V : (c : Dev nD) → Valuation τ sig (Elt F)) (c : Dev nD) (w : Fin cfg1.W) : (L2.pointData V c).share w = fullShare :=
  Pipeline.Dat.share_full (L2.pointData V c) (fun w => L2.pointData_q V c w) w

theorem hF1_in (c : Dev nD) (w : Fin cfg1.W) (hin : (cfg1.win w).isOut = false)
    (hne : Pipeline.arrRef spec1 w ∉ ([main_v47] : List (Ref sig .tc))) :
    (L2.pointData (Gen.V10 m (outs m)) c).arrAt w cfg1.N = Gen.V11 m (outs m) c (Pipeline.arrRef spec1 w) :=
  ((L2.pointData (Gen.V10 m (outs m)) c).arrAt_in w hin _).trans ((L2.pointData_A _ c w).trans (Gen.V11_of m (outs m) c _ hne).symm)

theorem hF1 (c : Dev nD) (w : Fin cfg1.W) :
    (L2.pointData (Gen.V10 m (outs m)) c).arrAt w cfg1.N = Gen.V11 m (outs m) c (Pipeline.arrRef spec1 w) := by
  fin_cases w
  exacts [hF1_in m c _ rfl (by decide), hF1_in m c _ rfl (by decide), hF1_in m c _ rfl (by decide), hF1_in m c _ rfl (by decide),
    hF1_in m c _ rfl (by decide), hF1_in m c _ rfl (by decide), (V11_o m c).symm]

theorem hrest1 (c : Dev nD) (b : Ref sig .tc) (hb : b ∉ Finset.univ.image (Pipeline.arrRef spec1)) :
    Gen.V11 m (outs m) c b = Gen.V10 m (outs m) c b :=
  Gen.V11_of m (outs m) c b fun h => hb (by
    obtain rfl := List.mem_singleton.mp h
    exact Finset.mem_image.mpr ⟨6, Finset.mem_univ _, rfl⟩)

abbrev 𝒱₀ : Variants := Variants.none

abbrev L : GSem nD τ sig → Finset Unit := fun _ => ∅
abbrev lv : GSem nD τ sig → Unit → ℕ := fun _ _ => 0

def E (c : Dev nD) : sProp 𝕄 := iprop(∃ W, owes (c : Thread nD τ) (0 : CellTallies nD τ sig Unit) W)

set_option backward.isDefEq.respectTransparency.types false in

def R0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body0 (Gen.V9 m) c).loose
  hwaits := Pipeline.hwaits_of_owed_zero _ _ _ _ L lv 0 fun c t => dat0_owed (Gen.V9 m) c t
  pre c := iprop(StableHlo.held (c : Thread nD τ) (Pipeline.ucRefs τ sig) (Gen.V9 m c) ∗ E c)
  post c := iprop(StableHlo.held (c : Thread nD τ) (Pipeline.ucRefs τ sig) (Gen.V10 m (outs m) c) ∗ E c)
  X _ := iprop(emp)
  Y _ := iprop(emp)
  Z c := Pipeline.unscopedRest (Ix := Unit) (Name := ℕ) (U := UR sig nD τ) (Lvl := ℕ) spec0 c (fun b => Gen.V9 m c b)
  hentry c := by
    have hsplit := entry0 (Gen.V9 m) c
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin E
      rw [show ∀ t, (pdats m 0 c).owed t = 0 from fun t => dat0_owed (Gen.V9 m) c t]
      icases HO with ⟨%W, HO⟩; iexists W; isplitr
      · ipureintro; exact fun x _ => Or.inl ((dat0_recorded (Gen.V9 m) c 0).symm ▸ Set.mem_univ x)
      iexact HO
    isplitr; · iempintro
    iexact Hrest
  hin c := by
    refine BIBase.Entails.trans ?_ (Phi0_in (Gen.V9 m) c)
    iintro ⟨-, -, Hr⟩; iexact Hr
  hout c := by
    rw [Pipeline.ownSems0_none]
    refine (Phi0_out (Gen.V9 m) c).trans ?_
    iintro Hr
    isplitr; · iempintro
    isplitr; · iempintro
    iexact Hr
  hexit c := by
    have hjoin := exit0 (Gen.V9 m) (Gen.V10 m (outs m)) c (hF0 m c) (hrest0 m c)
    rw [Pipeline.unscopedBufs_held] at hjoin
    iintro ⟨Ha, HO, -, Hrest⟩
    imodintro
    isplitl [Ha Hrest]
    · iapply hjoin
      isplitl [Ha]; · iexact Ha
      iexact Hrest
    unfold Pipeline.Dat.owesAt Pipeline.owesWithin E
    rw [show ∀ t, (pdats m 0 c).owed t = 0 from fun t => dat0_owed (Gen.V9 m) c t]
    icases HO with ⟨%W, -, HO⟩; iexists W; iexact HO

set_option backward.isDefEq.respectTransparency.types false in

def R1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (L2.body (Gen.V10 m (outs m)) c).loose
  hwaits := Pipeline.hwaits_of_owed_zero _ _ _ _ L lv 1 fun c t => L2.pointData_owed (Gen.V10 m (outs m)) c t
  pre c := iprop(StableHlo.held (c : Thread nD τ) (Pipeline.ucRefs τ sig) (Gen.V10 m (outs m) c) ∗ E c)
  post c := iprop(StableHlo.held (c : Thread nD τ) (Pipeline.ucRefs τ sig) (Gen.V11 m (outs m) c) ∗ E c)
  X _ := iprop(emp)
  Y _ := iprop(emp)
  Z c := Pipeline.unscopedRest (Ix := Unit) (Name := ℕ) (U := UR sig nD τ) (Lvl := ℕ) spec1 c (fun b => Gen.V10 m (outs m) c b)
  hentry c := by
    have hsplit := Pipeline.arrays_of_unscopedBufs (p := 1) (pcfgs (F := F)) adm (pdats m) launch1.win launch1.arr_whole c
      (share1 (Gen.V10 m (outs m)) c) (fun b => Gen.V10 m (outs m) c b) fun w => L2.pointData_A (Gen.V10 m (outs m)) c w
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin E
      rw [show ∀ t, (pdats m 1 c).owed t = 0 from fun t => L2.pointData_owed (Gen.V10 m (outs m)) c t]
      icases HO with ⟨%W, HO⟩; iexists W; isplitr
      · ipureintro; exact fun x _ => Or.inl ((L2.pointData_recorded (Gen.V10 m (outs m)) c 0).symm ▸ Set.mem_univ x)
      iexact HO
    isplitr; · iempintro
    iexact Hrest
  hin c := by
    refine BIBase.Entails.trans ?_ (L2.Phi_in (Gen.V10 m (outs m)) c)
    iintro ⟨-, -, Hr⟩; iexact Hr
  hout c := by
    rw [Pipeline.ownSems0_none]
    refine (L2.Phi_out (Gen.V10 m (outs m)) c).trans ?_
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) (share1 (Gen.V10 m (outs m)) c)
      (fun b => Gen.V10 m (outs m) c b) (fun b => Gen.V11 m (outs m) c b) ((pdats m 1 c).arrAt · cfg1.N) (hF1 m c) (hrest1 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin E
    rw [show ∀ t, (pdats m 1 c).owed t = 0 from fun t => L2.pointData_owed (Gen.V10 m (outs m)) c t]
    icases HO with ⟨%W, -, HO⟩; iexists W; iexact HO

theorem launchElt : (ownU (initOf (Pipeline.cells cfgs cellOf_inj) (Pipeline.launchToks cfgs cellOf_inj)) : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem V12_res (c : Dev nD) : Gen.V12 m (outs m) c main_v48
    = extractStridedSlice S10000x121 ![0, 0] (Gen.V11 m (outs m) c main_v47) slices_S10240x128_S10000x121_0_0 := by
  show StableHlo.after hostOps2 (Gen.V11 m (outs m) c) (Proc.devRef .tc main_v48) = _
  after_results

theorem V11_out (c : Dev nD) : Gen.V11 m (outs m) c main_v47
    = KSpec.G_out (Gen.V9 m c main_v20)
            (KSpec.G_P (Gen.V9 m c main_v20) (Gen.V9 m c main_v36) (Gen.V9 m c main_v34) (Gen.V9 m c main_v37) (Gen.V9 m c main_v38) (Gen.V9 m c main_v39) (Gen.V9 m c main_v41))
            (KSpec.G_h1 (Gen.V9 m c main_v20) (Gen.V9 m c main_v36) (Gen.V9 m c main_v34) (Gen.V9 m c main_v37) (Gen.V9 m c main_v38) (Gen.V9 m c main_v39))
            (Gen.V9 m c main_v34) (Gen.V9 m c main_v43) (Gen.V9 m c main_v45) := by
  rw [V11_o, L2.arrAt_out, V10_p, V10_h, arrAt0_9, arrAt0_8, Gen.V10_of m (outs m) c main_v20 (by decide),
    Gen.V10_of m (outs m) c main_v34 (by decide), Gen.V10_of m (outs m) c main_v43 (by decide), Gen.V10_of m (outs m) c main_v45 (by decide)]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

/-- Every fair execution ends with the result buffer at the leading corner of the two regions' composed functions and
    every argument as launched. -/
theorem run_value : θ_run defs (onTc (τ := τ) (main (F := F))) ⟨m, fun _ => 0, ρ⟩ (fun r => ∀ c : Dev nD,
      r.2.mem ((c.tc : Thread nD τ).loc main_v48) = extractStridedSlice S10000x121 ![0, 0]
          (KSpec.G_out (Gen.V9 m c main_v20)
            (KSpec.G_P (Gen.V9 m c main_v20) (Gen.V9 m c main_v36) (Gen.V9 m c main_v34) (Gen.V9 m c main_v37) (Gen.V9 m c main_v38) (Gen.V9 m c main_v39) (Gen.V9 m c main_v41))
            (KSpec.G_h1 (Gen.V9 m c main_v20) (Gen.V9 m c main_v36) (Gen.V9 m c main_v34) (Gen.V9 m c main_v37) (Gen.V9 m c main_v38) (Gen.V9 m c main_v39))
            (Gen.V9 m c main_v34) (Gen.V9 m c main_v43) (Gen.V9 m c main_v45)) slices_S10240x128_S10000x121_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) adm (pdats m) () cellOf_inj emb₁ defs₀ 𝒱₀ L lv m ρ main
    (Gen.segs m (outs m) 𝒱₀ L lv (fun _ => E) () (pdats m) (R0 m) (R1 m))
    (fun c Q => by
      rewrite [main_chain c, Pipeline.Seg.run_eq_chain,
        show (Gen.segs m (outs m) 𝒱₀ L lv (fun _ => E) () (pdats m) (R0 m) (R1 m) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    0 (fun _ _ => rfl) (fun _ => iprop(emp)) (initOf (Pipeline.cells cfgs cellOf_inj) (Pipeline.launchToks cfgs cellOf_inj)) launchElt
    (T₀ := fun c => iprop(StableHlo.held (c : Thread nD τ) (Pipeline.ucRefs τ sig) (Gen.V0 m c) ∗ E c))
    (Tₙ := fun c => StableHlo.held (c : Thread nD τ) (Pipeline.ucRefs τ sig) (Gen.V12 m (outs m) c))
    (hch := fun c => ⟨.rfl, .rfl, .rfl, .rfl, .rfl, .rfl, .rfl, .rfl, .rfl, .rfl, .rfl, .rfl, .rfl⟩)
    (hinit := ?_)
    (QY := fun c s => ∀ b ∈ Pipeline.ucRefs τ sig, s.mem (((c : Thread nD τ)).1, b) = Gen.V12 m (outs m) c b)
    (hfin := fun c s' => ?_) (hQ := fun s h c => ?_)
  · refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, -, -⟩, -⟩
    imodintro
    isplitl [Hh]; · iexact Hh
    unfold E
    iexists ∅; iexact HO
  · iintro ⟨Hh, HSI⟩
    unfold StableHlo.held
    imodintro
    iapply (pointsTo_read_all (Pipeline.ucRefs τ sig) (fun b => (((c : Thread nD τ)).1, b)) (Gen.V12 m (outs m) c) s')
    isplitl [Hh] <;> iassumption
  · exact ⟨(h c _ (mem_uc main_v48 (by decide))).trans ((V12_res m c).trans (by rw [V11_out])),
      (h c _ (mem_uc main_arg0 (by decide))).trans (Gen.V12_main_arg0 m (outs m) c),
      (h c _ (mem_uc main_arg1 (by decide))).trans (Gen.V12_main_arg1 m (outs m) c),
      (h c _ (mem_uc main_arg2 (by decide))).trans (Gen.V12_main_arg2 m (outs m) c),
      (h c _ (mem_uc main_arg3 (by decide))).trans (Gen.V12_main_arg3 m (outs m) c),
      (h c _ (mem_uc main_arg4 (by decide))).trans (Gen.V12_main_arg4 m (outs m) c),
      (h c _ (mem_uc main_arg5 (by decide))).trans (Gen.V12_main_arg5 m (outs m) c),
      (h c _ (mem_uc main_arg6 (by decide))).trans (Gen.V12_main_arg6 m (outs m) c),
      (h c _ (mem_uc main_arg7 (by decide))).trans (Gen.V12_main_arg7 m (outs m) c)⟩

/-- Dropping the result from that run leaves the frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_value m ρ)

end Cert.KernelIdeal.Hand

end
-- ==== Proof.MathSpec.lean ====
import Idealize.ShloMosaic.PureOps.Ideal
import Idealize.ShloMosaic.Lib.ValueIdx

noncomputable section

open Idealize.ShloMosaic Idealize.ShloMosaic.ValueIdx

namespace Cert.MathSpec

section Ref

variable (s d : Fin 160000 → Fin 10000)

def inEdges (i : Fin 10000) : Finset (Fin 160000) := Finset.univ.filter fun e => d e = i

def dnm (i : Fin 10000) : ℝ := max ((inEdges d i).card : ℝ) 1

def agg {C : ℕ} (y : Fin 10000 → Fin C → ℝ) (i : Fin 10000) (f : Fin C) : ℝ :=
  (∑ e ∈ inEdges d i, y (s e) f) / dnm d i

def hid (x : Fin 10000 → Fin 50 → ℝ) (W1l W1r : Fin 50 → Fin 512 → ℝ) (b1 : Fin 512 → ℝ)
    (i : Fin 10000) (k : Fin 512) : ℝ :=
  max (∑ f, agg s d x i f * W1l f k + ∑ f, x i f * W1r f k + b1 k) 0

/-- The network over the reals, edge by edge: each layer is the mean over a node's in-edges of the source rows,
    projected, plus the node's own row projected and a bias; the first layer is clamped below at zero. -/
def out (x : Fin 10000 → Fin 50 → ℝ) (W1l W1r : Fin 50 → Fin 512 → ℝ) (b1 : Fin 512 → ℝ)
    (W2l W2r : Fin 512 → Fin 121 → ℝ) (b2 : Fin 121 → ℝ) (i : Fin 10000) (o : Fin 121) : ℝ :=
  ∑ k, agg s d (hid s d x W1l W1r b1) i k * W2l k o + ∑ k, hid s d x W1l W1r b1 i k * W2r k o + b2 o

end Ref

section Dense

variable (cnt : Fin 10240 → Fin 10240 → ℝ) (dinv : Fin 10240 → ℝ) (xp : Fin 10240 → Fin 50 → ℝ)
  (W1l W1r : Fin 50 → Fin 512 → ℝ) (b1 : Fin 512 → ℝ)

def khid (i : Fin 10240) (k : Fin 512) : ℝ :=
  max (∑ f, ((∑ j, cnt i j * xp j f) * dinv i) * W1l f k + ∑ f, xp i f * W1r f k + b1 k) 0

variable (W2lp W2rp : Fin 512 → Fin 128 → ℝ) (b2p : Fin 128 → ℝ)

def kproj (j : Fin 10240) (o : Fin 128) : ℝ := ∑ k, khid cnt dinv xp W1l W1r b1 j k * W2lp k o

/-- The same network through a dense edge-count matrix and a reciprocal-degree column; the second layer projects
    before it aggregates. -/
def kout (i : Fin 10240) (o : Fin 128) : ℝ :=
  (∑ j, cnt i j * kproj cnt dinv xp W1l W1r b1 W2lp j o) * dinv i
    + ∑ k, khid cnt dinv xp W1l W1r b1 i k * W2rp k o + b2p o

end Dense

def node (i : Fin 10000) : Fin 10240 := ⟨i.val, by omega⟩
def col (o : Fin 121) : Fin 128 := ⟨o.val, by omega⟩

def cntOf (s d : Fin 160000 → Fin 10000) (i j : Fin 10240) : ℝ :=
  ((Finset.univ.filter fun e : Fin 160000 => (d e).val = i.val ∧ (s e).val = j.val).card : ℝ)

def dinvOf (d : Fin 160000 → Fin 10000) (i : Fin 10240) : ℝ :=
  1 / max ((Finset.univ.filter fun e : Fin 160000 => (d e).val = i.val).card : ℝ) 1

def padRows {C : ℕ} (x : Fin 10000 → Fin C → ℝ) (j : Fin 10240) (f : Fin C) : ℝ :=
  if h : j.val < 10000 then x ⟨j.val, h⟩ f else 0
def padCols {K : ℕ} (W : Fin K → Fin 121 → ℝ) (k : Fin K) (o : Fin 128) : ℝ :=
  if h : o.val < 121 then W k ⟨o.val, h⟩ else 0
def padVec (b : Fin 121 → ℝ) (o : Fin 128) : ℝ := if h : o.val < 121 then b ⟨o.val, h⟩ else 0

theorem ix1_inj {n : Nat} (a a' : Fin n) : ix1 a = ix1 a' ↔ a = a' :=
  ⟨fun h => congrFun h 0, fun h => by rw [h]⟩

theorem sum_idx1 {M : Type*} [AddCommMonoid M] {n : Nat} (g : (⟨1, ![n]⟩ : Shape).Idx → M) :
    ∑ j, g j = ∑ a : Fin n, g (ix1 a) := by
  let eqv : (⟨1, ![n]⟩ : Shape).Idx ≃ Fin n :=
    { toFun := fun j => j 0, invFun := fun a => ix1 a, left_inv := fun j => (eq_ix1 j).symm, right_inv := fun _ => rfl }
  rw [← Equiv.sum_comp eqv.symm g]
  rfl

/-- A scatter-add of single elements into a vector: the element at `i` ends at its start value plus the updates whose
    index word names `i`. Both programs compute the in-degrees so. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem vecScatter_resultIdx {N E w : Nat} (wf : ScatterDims.WF ⟨1, ![N]⟩ ⟨2, ![E, 1]⟩ ⟨1, ![E]⟩ [] [0] [0] 1)
    (idx : IVec ⟨2, ![E, 1]⟩ w) (dd : Fin E → Fin N)
    (h : ∀ e, (idx (ix2 e (0 : Fin 1))).toInt = ((dd e).val : Int)) (e : Fin E) :
    (vecScatter N E wf).resultIdx? (ix1 e) idx = some (ix1 (dd e)) := by
  have hst : ∀ a, (vecScatter N E wf).start (ix1 e) idx a + ((vecScatter N E wf).window (ix1 e) a : Int)
      = ((ix1 (dd e) a).val : Int) := by
    intro a
    obtain rfl : a = (0 : Fin 1) := Subsingleton.elim _ _
    unfold ScatterDims.start ScatterDims.window
    rw [dif_pos (show (0 : Fin 1) ∈ (vecScatter N E wf).scatterDimsToOperandDims from List.mem_singleton.mpr rfl),
      dif_neg (show ¬ (0 : Fin 1) ∈ (vecScatter N E wf).sKept from List.not_mem_nil)]
    have hsi : (vecScatter N E wf).siIdx (ix1 e) ⟨List.idxOf (0 : Fin 1) (vecScatter N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi, h e]
    simp
  unfold ScatterDims.resultIdx?
  rw [dif_pos (fun a => by
    rw [hst a]; exact ⟨Int.natCast_nonneg _, by exact_mod_cast (ix1 (dd e) a).isLt⟩)]
  congr 1
  funext a
  refine Fin.ext ?_
  show ((vecScatter N E wf).start (ix1 e) idx a + ((vecScatter N E wf).window (ix1 e) a : Int)).toNat = _
  rw [hst a]; exact Int.toNat_natCast _

theorem vecScatterAdd_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (dd : Fin E → Fin N) (h : ∀ e, (idx (ix2 e (0 : Fin 1))).toInt = ((dd e).val : Int)) (i : Fin N) :
    Ideal.hostScatterAdd (vecScatter N E wf) x idx upd (ix1 i)
      = x (ix1 i) + ∑ e ∈ Finset.univ.filter (fun e => dd e = i), upd (ix1 e) := by
  unfold Ideal.hostScatterAdd
  congr 1
  rw [Finset.sum_filter, sum_idx1, Finset.sum_filter]
  refine Finset.sum_congr rfl fun e _ => ?_
  simp only [vecScatter_resultIdx wf idx dd h, Option.some.injEq, ix1_inj]

end Cert.MathSpec

structure Cert.RealArgs
    (a0 : FVec Ideal ⟨2, ![10000, 50]⟩ .f32) (a1 : IVec ⟨2, ![2, 160000]⟩ 32)
    (a2 a3 : FVec Ideal ⟨2, ![50, 512]⟩ .f32) (a4 : FVec Ideal ⟨1, ![512]⟩ .f32)
    (a5 a6 : FVec Ideal ⟨2, ![512, 121]⟩ .f32) (a7 : FVec Ideal ⟨1, ![121]⟩ .f32) where
  s : Fin 160000 → Fin 10000
  d : Fin 160000 → Fin 10000
  x : Fin 10000 → Fin 50 → ℝ
  W1l : Fin 50 → Fin 512 → ℝ
  W1r : Fin 50 → Fin 512 → ℝ
  b1 : Fin 512 → ℝ
  W2l : Fin 512 → Fin 121 → ℝ
  W2r : Fin 512 → Fin 121 → ℝ
  b2 : Fin 121 → ℝ
  hs : ∀ e : Fin 160000, a1 (ix2 (0 : Fin 2) e) = BitVec.ofNat 32 (s e).val
  hd : ∀ e : Fin 160000, a1 (ix2 (1 : Fin 2) e) = BitVec.ofNat 32 (d e).val
  hx : ∀ i f, a0 (ix2 i f) = ((x i f : ℝ) : EReal)
  hW1l : ∀ f k, a2 (ix2 f k) = ((W1l f k : ℝ) : EReal)
  hW1r : ∀ f k, a3 (ix2 f k) = ((W1r f k : ℝ) : EReal)
  hb1 : ∀ k, a4 (ix1 k) = ((b1 k : ℝ) : EReal)
  hW2l : ∀ k o, a5 (ix2 k o) = ((W2l k o : ℝ) : EReal)
  hW2r : ∀ k o, a6 (ix2 k o) = ((W2r k o : ℝ) : EReal)
  hb2 : ∀ o, a7 (ix1 o) = ((b2 o : ℝ) : EReal)

end
-- ==== Proof.KHost.lean ====
import proofs.«419373_j70497593197182_3_alg».proof.Proof.Gen.KernelIdeal.Regions
import proofs.«419373_j70497593197182_3_alg».proof.Proof.MathSpec
import Idealize.ShloMosaic.Lib.ValueIdx
import Idealize.ShloMosaic.Lib.ValueIdxRank1
import Idealize.ShloMosaic.Lib.ValueLayout
import Idealize.ShloMosaic.Lib.KernelVsHost
import Idealize.ShloMosaic.Lib.Pipeline.Value
import Idealize.ShloMosaic.Lib.StableHlo.Run
import Idealize.ShloMosaic.Lib.StableHlo.Predicate
import Idealize.ShloMosaic.PureOps.Ideal.Laws
import Mathlib.Data.Fintype.Basic
import Mathlib.Data.Finset.Card

noncomputable section

namespace Cert.KernelIdeal.KHost

open Idealize.ShloMosaic Idealize.ShloMosaic.ValueIdx Idealize.ShloMosaic.TcCoe
open Cert.KernelIdeal Cert.KernelIdeal.Gen Cert.MathSpec

section Fold
variable {ι κ : Type} [DecidableEq κ]

/-- Folding unit additions at target indices leaves at each index its start value plus the number of entries aimed at
    it. -/
theorem foldl_count_apply (ri : ι → Option κ) (g : ι → BitVec 32) (hg : ∀ n, g n = 1#32) :
    ∀ (l : List ι) (x : κ → BitVec 32) (i' : κ),
    (l.foldl (fun r n => (ri n).elim r fun i => fun j => if j = i then IntOp.addi (r i) (g n) else r j) x) i'
      = x i' + BitVec.ofNat 32 (l.filter fun n => ri n = some i').length
  | [], x, i' => by simp
  | n :: l, x, i' => by
    rw [List.foldl_cons, foldl_count_apply ri g hg l _ i']
    cases h : ri n with
    | none =>
      rw [List.filter_cons_of_neg (by simp [h])]
      rfl
    | some i =>
      by_cases hi : i' = i
      · subst hi
        rw [List.filter_cons_of_pos (by simp [h]), List.length_cons]
        show (if i' = i' then IntOp.addi (x i') (g n) else x i') + _ = _
        rw [if_pos rfl, hg n]
        show x i' + 1#32 + _ = _
        apply BitVec.eq_of_toNat_eq
        simp only [BitVec.toNat_add, BitVec.toNat_ofNat]
        omega
      · rw [List.filter_cons_of_neg (by simp [h]; exact fun e => hi e.symm)]
        show (if i' = i then IntOp.addi (x i) (g n) else x i') + _ = _
        rw [if_neg hi]

theorem length_filter_finRange (n : Nat) (p : Fin n → Prop) [DecidablePred p] :
    ((List.finRange n).filter fun k => p k).length = (Finset.univ.filter p).card := by
  rw [← List.toFinset_card_of_nodup ((List.nodup_finRange n).filter _), List.toFinset_filter, List.toFinset_finRange]
  congr 1
  ext k
  simp

end Fold

section Point

abbrev pointDims2 (A B N : ℕ) (wf : ScatterDims.WF ⟨2, ![A, B]⟩ ⟨2, ![N, 2]⟩ ⟨1, ![N]⟩ [] [0, 1] [0, 1] 1) :
    ScatterDims ⟨2, ![A, B]⟩ ⟨2, ![N, 2]⟩ ⟨1, ![N]⟩ where
  updateWindowDims := []
  insertedWindowDims := [0, 1]
  scatterDimsToOperandDims := [0, 1]
  indexVectorDim := 1
  wf := wf

theorem resultIdx?_point2 {A B N : ℕ} (wf : ScatterDims.WF ⟨2, ![A, B]⟩ ⟨2, ![N, 2]⟩ ⟨1, ![N]⟩ [] [0, 1] [0, 1] 1)
    (idx : IVec ⟨2, ![N, 2]⟩ 32) (e : Fin N) (a : Fin A) (b : Fin B)
    (ha : (idx (ix2 e (0 : Fin 2))).toInt = a.val) (hb : (idx (ix2 e (1 : Fin 2))).toInt = b.val) :
    (pointDims2 A B N wf).resultIdx? (ix1 e) idx = some (ix2 a b) := by
  have hk : (pointDims2 A B N wf).sKept = [] := by
    show ((List.finRange 2).filter fun x : Fin 2 => decide (x ∉ ([0, 1] : List (Fin 2)))) = []
    decide
  have hw : ∀ ax, (pointDims2 A B N wf).window (ix1 e) ax = 0 := fun ax => by
    unfold ScatterDims.window
    rw [dif_neg (by rw [hk]; exact List.not_mem_nil)]
  have hs0 : (pointDims2 A B N wf).start (ix1 e) idx (0 : Fin 2) = a.val := by
    unfold ScatterDims.start
    rw [dif_pos (List.mem_cons_self), ← ha]
    congr 2
    funext x; apply Fin.ext
    match x with
    | ⟨0, _⟩ => rfl
    | ⟨1, _⟩ => rfl
  have hs1 : (pointDims2 A B N wf).start (ix1 e) idx (1 : Fin 2) = b.val := by
    unfold ScatterDims.start
    rw [dif_pos (List.mem_cons_of_mem _ List.mem_cons_self), ← hb]
    congr 2
    funext x; apply Fin.ext
    match x with
    | ⟨0, _⟩ => rfl
    | ⟨1, _⟩ => rfl
  unfold ScatterDims.resultIdx?
  rw [dif_pos (fun ax => by
    match ax with
    | ⟨0, _⟩ => rw [hw, show (pointDims2 A B N wf).start (ix1 e) idx ⟨0, _⟩ = a.val from hs0]; have := a.isLt; constructor <;> [omega; (show (a.val : ℤ) + 0 < A; omega)]
    | ⟨1, _⟩ => rw [hw, show (pointDims2 A B N wf).start (ix1 e) idx ⟨1, _⟩ = b.val from hs1]; have := b.isLt; constructor <;> [omega; (show (b.val : ℤ) + 0 < B; omega)])]
  congr 1
  funext ax; apply Fin.ext
  match ax with
  | ⟨0, _⟩ => show ((pointDims2 A B N wf).start (ix1 e) idx ⟨0, _⟩ + (pointDims2 A B N wf).window (ix1 e) ⟨0, _⟩).toNat = a.val; rw [hw, show (pointDims2 A B N wf).start (ix1 e) idx ⟨0, _⟩ = a.val from hs0]; omega
  | ⟨1, _⟩ => show ((pointDims2 A B N wf).start (ix1 e) idx ⟨1, _⟩ + (pointDims2 A B N wf).window (ix1 e) ⟨1, _⟩).toNat = b.val; rw [hw, show (pointDims2 A B N wf).start (ix1 e) idx ⟨1, _⟩ = b.val from hs1]; omega

end Point

section Counts

theorem sum_one_eq_card {ι : Type} (S : Finset ι) : ∑ _k ∈ S, (1 : EReal) = ((S.card : ℝ) : EReal) := by
  classical
  induction S using Finset.induction_on with
  | empty => simp
  | insert a S ha ih =>
    rw [Finset.sum_insert ha, ih, Finset.card_insert_of_notMem ha]
    push_cast
    exact add_comm _ _

theorem scatter_count2 {A B N : ℕ} (wf : ScatterDims.WF ⟨2, ![A, B]⟩ ⟨2, ![N, 2]⟩ ⟨1, ![N]⟩ [] [0, 1] [0, 1] 1)
    (x : IVec ⟨2, ![A, B]⟩ 32) (idx : IVec ⟨2, ![N, 2]⟩ 32) (upd : IVec ⟨1, ![N]⟩ 32)
    (r : Fin N → Fin A) (q : Fin N → Fin B)
    (hr : ∀ e, (idx (ix2 e (0 : Fin 2))).toInt = (r e).val) (hq : ∀ e, (idx (ix2 e (1 : Fin 2))).toInt = (q e).val)
    (hu : ∀ k, upd k = 1#32) (i : Fin A) (j : Fin B) :
    Host.scatter (pointDims2 A B N wf) IntOp.addi x idx upd (ix2 i j)
      = x (ix2 i j) + BitVec.ofNat 32 (Finset.univ.filter fun e : Fin N => r e = i ∧ q e = j).card := by
  have hfold : Host.scatter (pointDims2 A B N wf) IntOp.addi x idx upd
      = (List.finRange (⟨1, ![N]⟩ : Shape).numel).foldl (fun rr n =>
          ((pointDims2 A B N wf).resultIdx? ((⟨1, ![N]⟩ : Shape).rowMajor.symm n) idx).elim rr fun i' => fun j' =>
            if j' = i' then IntOp.addi (rr i') (upd ((⟨1, ![N]⟩ : Shape).rowMajor.symm n)) else rr j') x := by
    unfold Host.scatter
    congr 1
    funext rr n
    cases (pointDims2 A B N wf).resultIdx? ((⟨1, ![N]⟩ : Shape).rowMajor.symm n) idx <;> rfl
  rw [hfold, foldl_count_apply _ _ (fun n => hu _), length_filter_finRange]
  congr 2
  refine Finset.card_equiv ((⟨1, ![N]⟩ : Shape).rowMajor.symm.trans idxEquiv1) (fun n => ?_)
  simp only [Finset.mem_filter, Finset.mem_univ, true_and]
  have hn : (⟨1, ![N]⟩ : Shape).rowMajor.symm n = ix1 (((⟨1, ![N]⟩ : Shape).rowMajor.symm.trans idxEquiv1) n) := eq_ix1 _
  rw [hn, resultIdx?_point2 wf idx _ (r _) (q _) (hr _) (hq _)]
  constructor
  · intro h
    have h' := Option.some.inj h
    exact ⟨congrFun h' (0 : Fin 2), congrFun h' (1 : Fin 2)⟩
  · rintro ⟨h1, h2⟩
    rw [h1, h2]

theorem hostScatterAdd_count1 {A N : ℕ} (wf : ScatterDims.WF ⟨1, ![A]⟩ ⟨2, ![N, 1]⟩ ⟨1, ![N]⟩ [] [0] [0] 1)
    (x : (⟨1, ![A]⟩ : Shape).Idx → EReal) (idx : IVec ⟨2, ![N, 1]⟩ 32) (upd : (⟨1, ![N]⟩ : Shape).Idx → EReal)
    (r : Fin N → Fin A) (hr : ∀ e, (idx (ix2 e (0 : Fin 1))).toInt = (r e).val) (hu : ∀ k, upd k = 1) (i : Fin A) :
    Ideal.hostScatterAdd (vecScatter A N wf) x idx upd (ix1 i)
      = x (ix1 i) + (((Finset.univ.filter fun e : Fin N => r e = i).card : ℝ) : EReal) := by
  rw [vecScatterAdd_apply wf x idx upd r hr i, Finset.sum_congr rfl (fun e _ => hu (ix1 e)), sum_one_eq_card]

end Counts

section Edges

def edgeRow0 (E : IVec S2x160000 32) : IVec S160000 32 :=
  shapeCast S160000 (extractStridedSlice S1x160000 ![0, 0] E slices_S2x160000_S1x160000_0_0) shapeCasts_S1x160000_S160000
def edgeRow1 (E : IVec S2x160000 32) : IVec S160000 32 :=
  shapeCast S160000 (extractStridedSlice S1x160000 ![1, 0] E slices_S2x160000_S1x160000_1_0) shapeCasts_S1x160000_S160000

def wrapIdx (v : IVec S160000 32) : IVec S160000 32 :=
  select (cmpi .slt v (broadcastInDim S160000 ![] bcast_S_S160000 (constantI S_ 32 0#32)))
    (addi v (broadcastInDim S160000 ![] bcast_S_S160000 (constantI S_ 32 10240#32))) v

def idxPairs (E : IVec S2x160000 32) : IVec S160000x2 32 :=
  concatenate S160000x2 1
    [⟨S160000x1, broadcastInDim S160000x1 ![0] bcast_S160000_S160000x1_0 (wrapIdx (edgeRow1 E))⟩,
     ⟨S160000x1, broadcastInDim S160000x1 ![0] bcast_S160000_S160000x1_0 (wrapIdx (edgeRow0 E))⟩]
    concatenates_S160000x1_S160000x1_S160000x2_d1

theorem edgeRow0_apply (E : IVec S2x160000 32) (e : Fin 160000) : edgeRow0 E (ix1 e) = E (ix2 (0 : Fin 2) e) := by
  unfold edgeRow0
  rw [shapeCast_1a_a_apply]
  exact slice2_axis0_apply 0 E _ (0 : Fin 1) e (0 : Fin 2) rfl

theorem edgeRow1_apply (E : IVec S2x160000 32) (e : Fin 160000) : edgeRow1 E (ix1 e) = E (ix2 (1 : Fin 2) e) := by
  unfold edgeRow1
  rw [shapeCast_1a_a_apply]
  exact slice2_axis0_apply 1 E _ (0 : Fin 1) e (1 : Fin 2) rfl

theorem wrapIdx_apply (v : IVec S160000 32) (e : Fin 160000) (n : ℕ) (hn : n < 2 ^ 31)
    (hv : v (ix1 e) = BitVec.ofNat 32 n) : wrapIdx v (ix1 e) = BitVec.ofNat 32 n := by
  have h : ¬ IntOp.cmpi .slt (BitVec.ofNat 32 n) 0#32 = 1#1 := by
    rw [StableHlo.Predicate.slt_iff_toNat (by rw [BitVec.toNat_ofNat]; omega) (by decide)]
    simp
  show Scalar.select (IntOp.cmpi .slt (v (ix1 e)) 0#32) (IntOp.addi (v (ix1 e)) 10240#32) (v (ix1 e)) = _
  rw [hv, eq_zero_of_ne_one h, select_zero]

theorem col_apply (v : IVec S160000 32) (e : Fin 160000) :
    broadcastInDim S160000x1 ![0] bcast_S160000_S160000x1_0 v (ix2 e (0 : Fin 1)) = v (ix1 e) :=
  broadcastInDim_apply _ _ _ _ (ix1 e) (fun a => by
    match a with
    | ⟨0, _⟩ =>
      show e.val = if (160000 : ℕ) = 1 then 0 else e.val
      rw [if_neg (by decide)])

theorem idxPairs_apply0 (E : IVec S2x160000 32) (e : Fin 160000) :
    idxPairs E (ix2 e (0 : Fin 2)) = wrapIdx (edgeRow1 E) (ix1 e) :=
  (concatenate_pair_apply_left (t := S160000x2) (s₁ := S160000x1) (s₂ := S160000x1) (1 : Fin 2) _ _ _ (ix2 e (0 : Fin 2)) rfl (ix2 e (0 : Fin 1)) (fun b => by
    match b with
    | ⟨0, _⟩ => rfl
    | ⟨1, _⟩ => rfl)).trans (col_apply _ e)

theorem idxPairs_apply1 (E : IVec S2x160000 32) (e : Fin 160000) :
    idxPairs E (ix2 e (1 : Fin 2)) = wrapIdx (edgeRow0 E) (ix1 e) :=
  (concatenate_pair_apply_right (t := S160000x2) (s₁ := S160000x1) (s₂ := S160000x1) (1 : Fin 2) _ _ _ (ix2 e (1 : Fin 2)) rfl rfl (ix2 e (0 : Fin 1)) (fun b hb => by
    match b, hb with
    | ⟨0, _⟩, _ => rfl
    | ⟨1, _⟩, hb => exact absurd rfl hb) rfl).trans (col_apply _ e)

end Edges

section Count

def countWords (E : IVec S2x160000 32) : IVec S10240x10240 32 :=
  Host.scatter scatter_S10240x10240_S160000x2_S160000_n_01_01_1 IntOp.addi
    (broadcastInDim S10240x10240 ![] bcast_S_S10240x10240 (constantI S_ 32 0#32)) (idxPairs E)
    (broadcastInDim S160000 ![] bcast_S_S160000 (constantI S_ 32 1#32))

theorem scatterA_eq : scatter_S10240x10240_S160000x2_S160000_n_01_01_1
    = pointDims2 10240 10240 160000 scatter_S10240x10240_S160000x2_S160000_n_01_01_1_wf := rfl

/-- The count matrix holds at `(i, j)` the number of edges from `j` to `i`. -/
theorem countWords_apply (E : IVec S2x160000 32) (s d : Fin 160000 → Fin 10000)
    (hs : ∀ e, E (ix2 (0 : Fin 2) e) = BitVec.ofNat 32 (s e).val)
    (hd : ∀ e, E (ix2 (1 : Fin 2) e) = BitVec.ofNat 32 (d e).val) (i j : Fin 10240) :
    countWords E (ix2 i j)
      = BitVec.ofNat 32 (Finset.univ.filter fun e : Fin 160000 => (d e).val = i.val ∧ (s e).val = j.val).card := by
  have hdlt : ∀ e, (d e).val < 10240 := fun e => by have := (d e).isLt; omega
  have hslt : ∀ e, (s e).val < 10240 := fun e => by have := (s e).isLt; omega
  have hr : ∀ e, (idxPairs E (ix2 e (0 : Fin 2))).toInt
      = ((fun e => (⟨(d e).val, hdlt e⟩ : Fin 10240)) e).val := fun e => by
    rw [idxPairs_apply0, wrapIdx_apply _ e (d e).val (by have := (d e).isLt; omega) ((edgeRow1_apply E e).trans (hd e)),
      StableHlo.Predicate.toInt_ofNat_small _ (by have := (d e).isLt; omega)]
  have hq : ∀ e, (idxPairs E (ix2 e (1 : Fin 2))).toInt
      = ((fun e => (⟨(s e).val, hslt e⟩ : Fin 10240)) e).val := fun e => by
    rw [idxPairs_apply1, wrapIdx_apply _ e (s e).val (by have := (s e).isLt; omega) ((edgeRow0_apply E e).trans (hs e)),
      StableHlo.Predicate.toInt_ofNat_small _ (by have := (s e).isLt; omega)]
  unfold countWords
  rw [scatterA_eq, scatter_count2 scatter_S10240x10240_S160000x2_S160000_n_01_01_1_wf
    (broadcastInDim S10240x10240 ![] bcast_S_S10240x10240 (constantI S_ 32 0#32)) (idxPairs E)
    (broadcastInDim S160000 ![] bcast_S_S160000 (constantI S_ 32 1#32))
    (fun e => (⟨(d e).val, hdlt e⟩ : Fin 10240)) (fun e => (⟨(s e).val, hslt e⟩ : Fin 10240)) hr hq (fun _ => rfl) i j]
  show 0#32 + _ = _
  rw [BitVec.zero_add]
  refine congrArg (fun k : ℕ => BitVec.ofNat 32 k) (congrArg Finset.card (Finset.filter_congr fun e _ => ?_))
  simp only [Fin.ext_iff]

end Count

section Degree

theorem ofBits_one_f32 : Ideal.ofBits .f32 0x3F800000#32 = 1 := by
  simp [Ideal.ofBits, Ideal.ieee, -EReal.coe_mul]; norm_num

def dinvCol (E : IVec S2x160000 32) : FVec Ideal S10240x1 .f32 :=
  shapeCast S10240x1
    (Host.divf (broadcastInDim S10240 ![] bcast_S_S10240 (constant (F := Ideal) S_ .f32 0x3F800000#32))
      (maximumf
        (Host.scatterAdd scatter_S10240_S160000x1_S160000_n_0_0_1
          (broadcastInDim S10240 ![] bcast_S_S10240 (constant (F := Ideal) S_ .f32 0x00000000#32))
          (broadcastInDim S160000x1 ![0] bcast_S160000_S160000x1_0 (wrapIdx (edgeRow1 E)))
          (broadcastInDim S160000 ![] bcast_S_S160000 (constant (F := Ideal) S_ .f32 0x3F800000#32)))
        (broadcastInDim S10240 ![] bcast_S_S10240 (constant (F := Ideal) S_ .f32 0x3F800000#32))))
    shapeCasts_S10240_S10240x1

theorem scatterD_eq : scatter_S10240_S160000x1_S160000_n_0_0_1
    = vecScatter 10240 160000 scatter_S10240_S160000x1_S160000_n_0_0_1_wf := rfl

theorem hostDivf_apply {s : Shape} (a b : FVec Ideal s .f32) (i : s.Idx) : Host.divf a b i = Ideal.div (a i) (b i) := rfl
theorem hostScatterAdd_eq {s si u : Shape} (d : ScatterDims s si u) (x : FVec Ideal s .f32) (idx : IVec si 32)
    (upd : FVec Ideal u .f32) : Host.scatterAdd d x idx upd = Ideal.hostScatterAdd d x idx upd := rfl
theorem bcast_const_apply {t : Shape} (h : S_.BroadcastsInDim t ![]) (b : BitVec 32) (j : t.Idx) :
    broadcastInDim t ![] h (constant (F := Ideal) S_ .f32 b) j = Ideal.ofBits .f32 b := rfl

theorem div_one_max (k : ℕ) : Ideal.div 1 (max (0 + ((k : ℝ) : EReal)) 1) = ((1 / max (k : ℝ) 1 : ℝ) : EReal) := by
  have hm : max ((k : ℝ) : EReal) 1 = ((max (k : ℝ) 1 : ℝ) : EReal) := by
    rw [← EReal.coe_one]
    exact (EReal.coe_strictMono.monotone.map_max).symm
  rw [zero_add, hm, Ideal.div_coe (ne_of_gt (lt_of_lt_of_le one_pos (le_max_right _ _))), one_mul]

/-- The column holds one over the larger of one and the in-degree. -/
theorem dinvCol_apply (E : IVec S2x160000 32) (d : Fin 160000 → Fin 10000)
    (hd : ∀ e, E (ix2 (1 : Fin 2) e) = BitVec.ofNat 32 (d e).val) (i : Fin 10240) :
    dinvCol E (ix2 i (0 : Fin 1)) = ((dinvOf d i : ℝ) : EReal) := by
  have hlt : ∀ e, (d e).val < 10240 := fun e => by have := (d e).isLt; omega
  have hr : ∀ e, ((broadcastInDim S160000x1 ![0] bcast_S160000_S160000x1_0 (wrapIdx (edgeRow1 E))) (ix2 e (0 : Fin 1))).toInt
      = ((fun e => (⟨(d e).val, hlt e⟩ : Fin 10240)) e).val := fun e => by
    rw [col_apply, wrapIdx_apply _ e (d e).val (by have := (d e).isLt; omega) ((edgeRow1_apply E e).trans (hd e)),
      StableHlo.Predicate.toInt_ofNat_small _ (by have := (d e).isLt; omega)]
  unfold dinvCol
  rw [shapeCast_apply _ _ (ix2 i (0 : Fin 1)) (ix1 i) (by
    rw [Shape.rowMajor_val_one, Shape.rowMajor_val_two]
    show i.val = i.val * 1 + 0
    omega)]
  rw [hostDivf_apply, maximumf_apply, hostScatterAdd_eq, bcast_const_apply, scatterD_eq]
  have hu : ∀ k, (broadcastInDim S160000 ![] bcast_S_S160000 (constant (F := Ideal) S_ .f32 0x3F800000#32)) k = (1 : EReal) :=
    fun k => (bcast_const_apply _ _ k).trans ofBits_one_f32
  have hx : (broadcastInDim S10240 ![] bcast_S_S10240 (constant (F := Ideal) S_ .f32 0x00000000#32)) (ix1 i) = (0 : EReal) :=
    (bcast_const_apply _ _ _).trans Ideal.ofBits_zero_f32
  generalize broadcastInDim S160000x1 ![0] bcast_S160000_S160000x1_0 (wrapIdx (edgeRow1 E)) = idx at hr ⊢
  generalize broadcastInDim S160000 ![] bcast_S_S160000 (constant (F := Ideal) S_ .f32 0x3F800000#32) = upd at hu ⊢
  generalize broadcastInDim S10240 ![] bcast_S_S10240 (constant (F := Ideal) S_ .f32 0x00000000#32) = x at hx ⊢
  rw [hostScatterAdd_count1 scatter_S10240_S160000x1_S160000_n_0_0_1_wf x idx upd
    (fun e => (⟨(d e).val, hlt e⟩ : Fin 10240)) hr hu i, hx, ofBits_one_f32, div_one_max]
  unfold dinvOf
  refine congrArg (fun k : ℕ => ((1 / max (k : ℝ) 1 : ℝ) : EReal)) (congrArg Finset.card (Finset.filter_congr fun e _ => ?_))
  simp only [Fin.ext_iff]

end Degree

section Entered

variable (m : (ℓ : Loc nD τ sig) → Buf (Elt Ideal) ℓ) (c : Dev nD)
  (R : Cert.RealArgs (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7)))

set_option maxHeartbeats 1000000 in

theorem v20_eq : @Eq (FVec Ideal S10240x10240 .bf16) (Gen.V1 m c main_v20)
    (sitofp .bf16 (countWords (m ((c.tc : Thread nD τ).loc main_arg1)))) := by
  show StableHlo.after hostOps0 (V0 m c) (Proc.devRef .tc main_v20) = _
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rfl

theorem A_apply (i j : Fin 10240) : (Gen.V9 m c main_v20 : FVec Ideal S10240x10240 .bf16) (ix2 i j) = ((cntOf R.s R.d i j : ℝ) : EReal) := by
  rw [V9_of m c main_v20 (by decide), V8_of m c main_v20 (by decide), V7_of m c main_v20 (by decide),
    V6_of m c main_v20 (by decide), V5_of m c main_v20 (by decide), V4_of m c main_v20 (by decide),
    V3_of m c main_v20 (by decide), V2_of m c main_v20 (by decide), v20_eq]
  show (((countWords (m ((c.tc : Thread nD τ).loc main_arg1)) (ix2 i j)).toInt : ℝ) : EReal) = _
  rw [countWords_apply _ R.s R.d R.hs R.hd i j,
    StableHlo.Predicate.toInt_ofNat_small _ (lt_of_le_of_lt ((Finset.card_filter_le _ _).trans_eq
      (by rw [Finset.card_univ, Fintype.card_fin])) (by norm_num)), Int.cast_natCast]
  rfl

set_option maxHeartbeats 1000000 in

theorem v34_eq : @Eq (FVec Ideal S10240x1 .f32) (Gen.V1 m c main_v34)
    (dinvCol (m ((c.tc : Thread nD τ).loc main_arg1))) := by
  show StableHlo.after hostOps0 (V0 m c) (Proc.devRef .tc main_v34) = _
  after_results_simp
  rfl

theorem D_apply (i : Fin 10240) : (Gen.V9 m c main_v34 : FVec Ideal S10240x1 .f32) (ix2 i (0 : Fin 1)) = ((dinvOf R.d i : ℝ) : EReal) := by
  rw [V9_of m c main_v34 (by decide), V8_of m c main_v34 (by decide), V7_of m c main_v34 (by decide),
    V6_of m c main_v34 (by decide), V5_of m c main_v34 (by decide), V4_of m c main_v34 (by decide),
    V3_of m c main_v34 (by decide), V2_of m c main_v34 (by decide), v34_eq]
  exact dinvCol_apply _ R.d R.hd i

theorem W1l_apply (f : Fin 50) (k : Fin 512) : (Gen.V9 m c main_v37 : FVec Ideal S50x512 .bf16) (ix2 f k) = ((R.W1l f k : ℝ) : EReal) := by
  have e : @Eq (FVec Ideal S50x512 .bf16) (Gen.V9 m c main_v37)
      (truncf .bf16 (m ((c.tc : Thread nD τ).loc main_arg2) : FVec Ideal S50x512 .f32) bitsLt_bf16_f32) := by
    rw [V9_of m c main_v37 (by decide), V8_of m c main_v37 (by decide), V7_of m c main_v37 (by decide),
      V6_of m c main_v37 (by decide), V5_of m c main_v37 (by decide), V4_of m c main_v37 (by decide)]
    show StableHlo.after hostOps0_2 (V2 m c) (Proc.devRef .tc main_v37) = _
    after_results
  rw [e, truncf_apply, R.hW1l]

theorem W1r_apply (f : Fin 50) (k : Fin 512) : (Gen.V9 m c main_v38 : FVec Ideal S50x512 .bf16) (ix2 f k) = ((R.W1r f k : ℝ) : EReal) := by
  have e : @Eq (FVec Ideal S50x512 .bf16) (Gen.V9 m c main_v38)
      (truncf .bf16 (m ((c.tc : Thread nD τ).loc main_arg3) : FVec Ideal S50x512 .f32) bitsLt_bf16_f32) := by
    rw [V9_of m c main_v38 (by decide), V8_of m c main_v38 (by decide), V7_of m c main_v38 (by decide),
      V6_of m c main_v38 (by decide), V5_of m c main_v38 (by decide), V4_of m c main_v38 (by decide)]
    show StableHlo.after hostOps0_2 (V2 m c) (Proc.devRef .tc main_v38) = _
    after_results
  rw [e, truncf_apply, R.hW1r]

theorem b1_apply (k : Fin 512) : (Gen.V9 m c main_v39 : FVec Ideal S1x512 .f32) (ix2 (0 : Fin 1) k) = ((R.b1 k : ℝ) : EReal) := by
  have e : @Eq (FVec Ideal S1x512 .f32) (Gen.V9 m c main_v39)
      (shapeCast S1x512 (m ((c.tc : Thread nD τ).loc main_arg4) : FVec Ideal S512 .f32) shapeCasts_S512_S1x512) := by
    rw [V9_of m c main_v39 (by decide), V8_of m c main_v39 (by decide), V7_of m c main_v39 (by decide),
      V6_of m c main_v39 (by decide), V5_of m c main_v39 (by decide), V4_of m c main_v39 (by decide)]
    show StableHlo.after hostOps0_2 (V2 m c) (Proc.devRef .tc main_v39) = _
    after_results
    rfl
  rw [e, shapeCast_a_1a_apply, R.hb1]

theorem padValue_eq : (sitofp (F := Ideal) .f32 (constantI S_ 32 0#32) : FVec Ideal S_ .f32) (Shape.Idx.first h_S_) = 0 := by
  show (((0#32 : BitVec 32).toInt : ℝ) : EReal) = 0
  rw [show (0#32 : BitVec 32).toInt = 0 from by decide]
  norm_num

theorem X_apply (j : Fin 10240) (f : Fin 50) : (Gen.V9 m c main_v36 : FVec Ideal S10240x50 .bf16) (ix2 j f) = ((padRows R.x j f : ℝ) : EReal) := by
  have e : @Eq (FVec Ideal S10240x50 .bf16) (Gen.V9 m c main_v36)
      (truncf .bf16 (pad S10240x50 ![0, 0] ![240, 0] ![0, 0] (m ((c.tc : Thread nD τ).loc main_arg0) : FVec Ideal S10000x50 .f32)
        (sitofp (F := Ideal) .f32 (constantI S_ 32 0#32)) pads_S10000x50_S10240x50_02400_000 h_S_) bitsLt_bf16_f32) := by
    rw [V9_of m c main_v36 (by decide), V8_of m c main_v36 (by decide), V7_of m c main_v36 (by decide),
      V6_of m c main_v36 (by decide), V5_of m c main_v36 (by decide), V4_of m c main_v36 (by decide)]
    show StableHlo.after hostOps0_2 (V2 m c) (Proc.devRef .tc main_v36) = _
    after_results
    rfl
  rw [e, truncf_apply]
  by_cases h : j.val < 10000
  · rw [pad_apply_of_inside _ _ _ _ _ _ h_S_ (ix2 j f) (ix2 (⟨j.val, h⟩ : Fin 10000) f) (fun a => by
      match a with
      | ⟨0, _⟩ => show j.val = 0 + j.val * (0 + 1); omega
      | ⟨1, _⟩ => show f.val = 0 + f.val * (0 + 1); omega), R.hx]
    simp only [padRows, dif_pos h]
  · rw [pad_apply_of_not_inside _ _ _ _ _ _ h_S_ (ix2 j f) (0 : Fin 2) (by
      show ¬(0 ≤ j.val ∧ (j.val - 0) % (0 + 1) = 0 ∧ (j.val - 0) / (0 + 1) < 10000)
      omega), padValue_eq]
    simp only [padRows, dif_neg h, EReal.coe_zero]

theorem W2l_apply (k : Fin 512) (o : Fin 128) : (Gen.V9 m c main_v41 : FVec Ideal S512x128 .bf16) (ix2 k o) = ((padCols R.W2l k o : ℝ) : EReal) := by
  have e : @Eq (FVec Ideal S512x128 .bf16) (Gen.V9 m c main_v41)
      (truncf .bf16 (pad S512x128 ![0, 0] ![0, 7] ![0, 0] (m ((c.tc : Thread nD τ).loc main_arg5) : FVec Ideal S512x121 .f32)
        (sitofp (F := Ideal) .f32 (constantI S_ 32 0#32)) pads_S512x121_S512x128_000_070 h_S_) bitsLt_bf16_f32) := by
    rw [V9_of m c main_v41 (by decide), V8_of m c main_v41 (by decide), V7_of m c main_v41 (by decide),
      V6_of m c main_v41 (by decide)]
    show StableHlo.after hostOps0_4 (V4 m c) (Proc.devRef .tc main_v41) = _
    after_results
    rfl
  rw [e, truncf_apply]
  by_cases h : o.val < 121
  · rw [pad_apply_of_inside _ _ _ _ _ _ h_S_ (ix2 k o) (ix2 k (⟨o.val, h⟩ : Fin 121)) (fun a => by
      match a with
      | ⟨0, _⟩ => show k.val = 0 + k.val * (0 + 1); omega
      | ⟨1, _⟩ => show o.val = 0 + o.val * (0 + 1); omega), R.hW2l]
    simp only [padCols, dif_pos h]
  · rw [pad_apply_of_not_inside _ _ _ _ _ _ h_S_ (ix2 k o) (1 : Fin 2) (by
      show ¬(0 ≤ o.val ∧ (o.val - 0) % (0 + 1) = 0 ∧ (o.val - 0) / (0 + 1) < 121)
      omega), padValue_eq]
    simp only [padCols, dif_neg h, EReal.coe_zero]

theorem W2r_apply (k : Fin 512) (o : Fin 128) : (Gen.V9 m c main_v43 : FVec Ideal S512x128 .bf16) (ix2 k o) = ((padCols R.W2r k o : ℝ) : EReal) := by
  have e : @Eq (FVec Ideal S512x128 .bf16) (Gen.V9 m c main_v43)
      (truncf .bf16 (pad S512x128 ![0, 0] ![0, 7] ![0, 0] (m ((c.tc : Thread nD τ).loc main_arg6) : FVec Ideal S512x121 .f32)
        (sitofp (F := Ideal) .f32 (constantI S_ 32 0#32)) pads_S512x121_S512x128_000_070 h_S_) bitsLt_bf16_f32) := by
    rw [V9_of m c main_v43 (by decide), V8_of m c main_v43 (by decide)]
    show StableHlo.after hostOps0_6 (V6 m c) (Proc.devRef .tc main_v43) = _
    after_results
    rfl
  rw [e, truncf_apply]
  by_cases h : o.val < 121
  · rw [pad_apply_of_inside _ _ _ _ _ _ h_S_ (ix2 k o) (ix2 k (⟨o.val, h⟩ : Fin 121)) (fun a => by
      match a with
      | ⟨0, _⟩ => show k.val = 0 + k.val * (0 + 1); omega
      | ⟨1, _⟩ => show o.val = 0 + o.val * (0 + 1); omega), R.hW2r]
    simp only [padCols, dif_pos h]
  · rw [pad_apply_of_not_inside _ _ _ _ _ _ h_S_ (ix2 k o) (1 : Fin 2) (by
      show ¬(0 ≤ o.val ∧ (o.val - 0) % (0 + 1) = 0 ∧ (o.val - 0) / (0 + 1) < 121)
      omega), padValue_eq]
    simp only [padCols, dif_neg h, EReal.coe_zero]

theorem v44_eq : @Eq (FVec Ideal S128 .f32) (Gen.V8 m c main_v44)
    (pad S128 ![0] ![7] ![0] (m ((c.tc : Thread nD τ).loc main_arg7) : FVec Ideal S121 .f32)
      (sitofp (F := Ideal) .f32 (constantI S_ 32 0#32)) pads_S121_S128_070 h_S_) := by
  show StableHlo.after hostOps0_7 (V7 m c) (Proc.devRef .tc main_v44) = _
  after_results
  rfl

theorem b2_apply (o : Fin 128) : (Gen.V9 m c main_v45 : FVec Ideal S1x128 .f32) (ix2 (0 : Fin 1) o) = ((padVec R.b2 o : ℝ) : EReal) := by
  have e : @Eq (FVec Ideal S1x128 .f32) (Gen.V9 m c main_v45)
      (shapeCast S1x128 (pad S128 ![0] ![7] ![0] (m ((c.tc : Thread nD τ).loc main_arg7) : FVec Ideal S121 .f32)
        (sitofp (F := Ideal) .f32 (constantI S_ 32 0#32)) pads_S121_S128_070 h_S_) shapeCasts_S128_S1x128) := by
    show (StableHlo.reshape main_v44 main_v45 rfl shapeCasts_S128_S1x128).result (V8 m c) (Proc.devRef .tc main_v45) = _
    rw [StableHlo.reshape_result, v44_eq]
    rfl
  rw [e, shapeCast_a_1a_apply]
  by_cases h : o.val < 121
  · rw [pad_apply_of_inside _ _ _ _ _ _ h_S_ (ix1 o) (ix1 (⟨o.val, h⟩ : Fin 121)) (fun a => by
      match a with
      | ⟨0, _⟩ => show o.val = 0 + o.val * (0 + 1); omega), R.hb2]
    simp only [padVec, dif_pos h]
  · rw [pad_apply_of_not_inside _ _ _ _ _ _ h_S_ (ix1 o) (0 : Fin 1) (by
      show ¬(0 ≤ o.val ∧ (o.val - 0) % (0 + 1) = 0 ∧ (o.val - 0) / (0 + 1) < 121)
      omega), padValue_eq]
    simp only [padVec, dif_neg h, EReal.coe_zero]

theorem slice_apply (Y : FVec Ideal S10240x128 .f32) (i : Fin 10000) (o : Fin 121) : (extractStridedSlice S10000x121 ![0, 0] Y slices_S10240x128_S10000x121_0_0 : FVec Ideal S10000x121 .f32) (ix2 i o) = Y (ix2 (node i) (col o)) :=
  extractStridedSlice_apply _ _ _ _ _ (fun a => by
    match a with
    | ⟨0, _⟩ => show i.val = 0 + i.val; omega
    | ⟨1, _⟩ => show o.val = 0 + o.val; omega)

end Entered

end Cert.KernelIdeal.KHost

end
-- ==== Proof.KValue.lean ====
import proofs.«419373_j70497593197182_3_alg».proof.Proof.KSpec
import proofs.«419373_j70497593197182_3_alg».proof.Proof.MathSpec
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

namespace Cert.KernelIdeal.KValue

open Idealize.ShloMosaic Idealize.ShloMosaic.ValueIdx
open Cert.KernelIdeal Cert.KernelIdeal.Gen Cert.KernelIdeal.KSpec Cert.MathSpec

theorem coe_sum {ι : Type*} (s : Finset ι) (f : ι → ℝ) :
    ∑ i ∈ s, ((f i : ℝ) : EReal) = ((∑ i ∈ s, f i : ℝ) : EReal) := by
  classical
  refine Finset.induction_on s (by simp) fun a s ha ih => ?_
  rw [Finset.sum_insert ha, Finset.sum_insert ha, ih, EReal.coe_add]

theorem coe_max (x y : ℝ) : max (x : EReal) (y : EReal) = ((max x y : ℝ) : EReal) :=
  (EReal.coe_strictMono.monotone.map_max).symm

/-- A sum over 10240 positions is the sum over its two halves of 5120. -/
theorem sum_halves {M : Type*} [AddCommMonoid M] (f : Fin 10240 → M) :
    ∑ j : Fin 10240, f j = ∑ j : Fin 5120, f (redOf 0 j) + ∑ j : Fin 5120, f (redOf 1 j) := by
  have h := Fin.sum_univ_add (a := 5120) (b := 5120) (fun i : Fin (5120 + 5120) => f ⟨i.val, i.isLt⟩)
  have e0 : ∀ j : Fin 5120, (⟨(Fin.castAdd 5120 j).val, (Fin.castAdd 5120 j).isLt⟩ : Fin 10240) = redOf 0 j :=
    fun j => Fin.ext (by show j.val = 5120 * 0 + j.val; omega)
  have e1 : ∀ j : Fin 5120, (⟨(Fin.natAdd 5120 j).val, (Fin.natAdd 5120 j).isLt⟩ : Fin 10240) = redOf 1 j :=
    fun j => Fin.ext (by show 5120 + j.val = 5120 * 1 + j.val; omega)
  rw [Finset.sum_congr rfl fun j _ => congrArg f (e0 j), Finset.sum_congr rfl fun j _ => congrArg f (e1 j)] at h
  exact h

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A block product into the zero accumulator is the plain product of the two blocks: at an index, the sum over the
    contracted coordinate. -/
theorem mm_apply {M K N : ℕ} {φ₁ φ₂ : FTy} (l : FVec Ideal ⟨2, ![M, K]⟩ φ₁) (r : FVec Ideal ⟨2, ![K, N]⟩ φ₂) (p : Fin M) (q : Fin N) :
    matmul (DotDims.plain M K N) none l r (constant (F := Ideal) ⟨2, ![M, N]⟩ .f32 0x00000000#32) (ix2 p q)
      = ∑ k : Fin K, l (ix2 p k) * r (ix2 k q) :=
  (Ideal.matmul_constant_zero_apply (DotDims.plain M K N) none l r (ix2 p q)).trans
    ((Ideal.dotGeneral_apply (DotDims.plain M K N) none _ l r (ix2 p q)).symm.trans
      (StackMember.dotGeneral_plain_apply none l r p q))

theorem mmA_apply (l : FVec Ideal S1024x5120 .bf16) (r : FVec Ideal S5120x50 .bf16) (p : Fin 1024) (q : Fin 50) :
    matmul dot_S1024x5120_S5120x50_S1024x50_1_0_0_1_n_n none l r (constant (F := Ideal) S1024x50 .f32 0x00000000#32) (ix2 p q)
      = ∑ k : Fin 5120, l (ix2 p k) * r (ix2 k q) := mm_apply l r p q

theorem mmB_apply (l : FVec Ideal S1024x50 .bf16) (r : FVec Ideal S50x512 .bf16) (p : Fin 1024) (q : Fin 512) :
    matmul dot_S1024x50_S50x512_S1024x512_1_0_0_1_n_n none l r (constant (F := Ideal) S1024x512 .f32 0x00000000#32) (ix2 p q)
      = ∑ k : Fin 50, l (ix2 p k) * r (ix2 k q) := mm_apply l r p q

theorem mmC_apply (l : FVec Ideal S1024x512 .bf16) (r : FVec Ideal S512x128 .bf16) (p : Fin 1024) (q : Fin 128) :
    matmul dot_S1024x512_S512x128_S1024x128_1_0_0_1_n_n none l r (constant (F := Ideal) S1024x128 .f32 0x00000000#32) (ix2 p q)
      = ∑ k : Fin 512, l (ix2 p k) * r (ix2 k q) := mm_apply l r p q

theorem mmD_apply (l : FVec Ideal S1024x5120 .bf16) (r : FVec Ideal S5120x128 .bf16) (p : Fin 1024) (q : Fin 128) :
    matmul dot_S1024x5120_S5120x128_S1024x128_1_0_0_1_n_n none l r (constant (F := Ideal) S1024x128 .f32 0x00000000#32) (ix2 p q)
      = ∑ k : Fin 5120, l (ix2 p k) * r (ix2 k q) := mm_apply l r p q

theorem blkA_apply (A : FVec Ideal S10240x10240 .bf16) (mb : Fin 10) (kb : Fin 2) (r : Fin 1024) (j : Fin 5120) :
    blkA A mb kb (ix2 r j) = A (ix2 (rowOf mb r) (redOf kb j)) := rfl
theorem half50_apply (X : FVec Ideal S10240x50 .bf16) (kb : Fin 2) (j : Fin 5120) (f : Fin 50) :
    half50 X kb (ix2 j f) = X (ix2 (redOf kb j) f) := rfl
theorem half128_apply (P : FVec Ideal S10240x128 .bf16) (kb : Fin 2) (j : Fin 5120) (o : Fin 128) :
    half128 P kb (ix2 j o) = P (ix2 (redOf kb j) o) := rfl
theorem rows50_apply (X : FVec Ideal S10240x50 .bf16) (mb : Fin 10) (r : Fin 1024) (f : Fin 50) :
    rows50 X mb (ix2 r f) = X (ix2 (rowOf mb r) f) := rfl
theorem rows1_apply (D : FVec Ideal S10240x1 .f32) (mb : Fin 10) (r : Fin 1024) :
    rows1 D mb (ix2 r (0 : Fin 1)) = D (ix2 (rowOf mb r) (0 : Fin 1)) := rfl
theorem rows512_apply (H : FVec Ideal S10240x512 .bf16) (mb : Fin 10) (r : Fin 1024) (k : Fin 512) :
    rows512 H mb (ix2 r k) = H (ix2 (rowOf mb r) k) := rfl

theorem scalar_zero : (Scalar.ofBits .f32 0x00000000#32 : Ideal .f32) = 0 := Ideal.ofBits_zero_f32

theorem k0_pay1_apply (i : S1024x50.Idx) : (k0_pay1 (F := Ideal)) i = 0 := by
  unfold k0_pay1
  simp only [shapeCast_self]
  exact scalar_zero

theorem k0_pay2_apply (x : FVec Ideal S5120x50 .bf16) (acc : FVec Ideal S1024x50 .f32) (a : FVec Ideal S1024x5120 .bf16)
    (r : Fin 1024) (f : Fin 50) :
    k0_pay2 x acc a (ix2 r f) = acc (ix2 r f) + ∑ j : Fin 5120, a (ix2 r j) * x (ix2 j f) := by
  unfold k0_pay2
  simp only [shapeCast_self]
  rw [addf_apply, mmA_apply]

theorem acc0_apply (a0 a1 : FVec Ideal S1024x5120 .bf16) (x0 x1 : FVec Ideal S5120x50 .bf16) (r : Fin 1024) (f : Fin 50) :
    acc0 a0 a1 x0 x1 (ix2 r f)
      = (0 + ∑ j : Fin 5120, a0 (ix2 r j) * x0 (ix2 j f)) + ∑ j : Fin 5120, a1 (ix2 r j) * x1 (ix2 j f) := by
  unfold acc0
  rw [k0_pay2_apply, k0_pay2_apply, k0_pay1_apply]

theorem k0_pay3_apply (acc : FVec Ideal S1024x50 .f32) (dinv : FVec Ideal S1024x1 .f32) (Wl : FVec Ideal S50x512 .bf16)
    (xs : FVec Ideal S1024x50 .bf16) (Wr : FVec Ideal S50x512 .bf16) (b : FVec Ideal S1x512 .f32) (r : Fin 1024) (k : Fin 512) :
    (k0_pay3 (F := Ideal) acc dinv Wl xs Wr b (ix2 r k) : EReal)
      = max (((∑ f : Fin 50, (acc (ix2 r f) * dinv (ix2 r (0 : Fin 1))) * Wl (ix2 f k))
            + ∑ f : Fin 50, xs (ix2 r f) * Wr (ix2 f k)) + b (ix2 (0 : Fin 1) k)) 0 := by
  unfold k0_pay3
  simp only [shapeCast_self]
  rw [truncf_apply, maximumf_apply, addf_apply, addf_apply, mmB_apply, mmB_apply, broadcastTo_1b_ab_apply, broadcast_apply, scalar_zero]
  simp only [truncf_apply, mulf_apply, broadcastTo_a1_ab_apply]

theorem k0_pay4_apply (acc : FVec Ideal S1024x50 .f32) (dinv : FVec Ideal S1024x1 .f32) (Wl : FVec Ideal S50x512 .bf16)
    (xs : FVec Ideal S1024x50 .bf16) (Wr : FVec Ideal S50x512 .bf16) (b : FVec Ideal S1x512 .f32) (Wp : FVec Ideal S512x128 .bf16)
    (r : Fin 1024) (o : Fin 128) :
    k0_pay4 acc dinv Wl xs Wr b Wp (ix2 r o) = ∑ k : Fin 512, k0_pay3 (F := Ideal) acc dinv Wl xs Wr b (ix2 r k) * Wp (ix2 k o) := by
  unfold k0_pay4
  simp only [shapeCast_self]
  rw [truncf_apply, mmC_apply]

theorem acc0_real (cnt : Fin 10240 → Fin 10240 → ℝ) (xp : Fin 10240 → Fin 50 → ℝ)
    (A : FVec Ideal S10240x10240 .bf16) (X : FVec Ideal S10240x50 .bf16)
    (hA : ∀ i j, A (ix2 i j) = ((cnt i j : ℝ) : EReal)) (hX : ∀ j f, X (ix2 j f) = ((xp j f : ℝ) : EReal))
    (mb : Fin 10) (r : Fin 1024) (f : Fin 50) :
    acc0 (blkA A mb 0) (blkA A mb 1) (half50 X 0) (half50 X 1) (ix2 r f)
      = ((∑ j : Fin 10240, cnt (rowOf mb r) j * xp j f : ℝ) : EReal) := by
  rw [acc0_apply, sum_halves (fun j => cnt (rowOf mb r) j * xp j f), zero_add]
  simp only [blkA_apply, half50_apply, hA, hX, EReal.coe_add, ← coe_sum, EReal.coe_mul]

theorem h1b_real (cnt : Fin 10240 → Fin 10240 → ℝ) (dinv : Fin 10240 → ℝ) (xp : Fin 10240 → Fin 50 → ℝ)
    (W1l W1r : Fin 50 → Fin 512 → ℝ) (b1 : Fin 512 → ℝ)
    (A : FVec Ideal S10240x10240 .bf16) (X : FVec Ideal S10240x50 .bf16) (D : FVec Ideal S10240x1 .f32)
    (Wl Wr : FVec Ideal S50x512 .bf16) (b : FVec Ideal S1x512 .f32)
    (hA : ∀ i j, A (ix2 i j) = ((cnt i j : ℝ) : EReal)) (hX : ∀ j f, X (ix2 j f) = ((xp j f : ℝ) : EReal))
    (hD : ∀ i, D (ix2 i (0 : Fin 1)) = ((dinv i : ℝ) : EReal)) (hWl : ∀ f k, Wl (ix2 f k) = ((W1l f k : ℝ) : EReal))
    (hWr : ∀ f k, Wr (ix2 f k) = ((W1r f k : ℝ) : EReal)) (hb : ∀ k, b (ix2 (0 : Fin 1) k) = ((b1 k : ℝ) : EReal))
    (mb : Fin 10) (r : Fin 1024) (k : Fin 512) :
    (h1b (blkA A mb 0) (blkA A mb 1) (half50 X 0) (half50 X 1) (rows1 D mb) Wl (rows50 X mb) Wr b (ix2 r k) : EReal)
      = ((khid cnt dinv xp W1l W1r b1 (rowOf mb r) k : ℝ) : EReal) := by
  unfold h1b
  rw [k0_pay3_apply]
  unfold khid
  simp only [acc0_real cnt xp A X hA hX, rows1_apply, rows50_apply, hD, hX, hWl, hWr, hb,
    ← coe_max, EReal.coe_zero, EReal.coe_add, ← coe_sum, EReal.coe_mul]

theorem G_h1_apply (cnt : Fin 10240 → Fin 10240 → ℝ) (dinv : Fin 10240 → ℝ) (xp : Fin 10240 → Fin 50 → ℝ)
    (W1l W1r : Fin 50 → Fin 512 → ℝ) (b1 : Fin 512 → ℝ)
    (A : FVec Ideal S10240x10240 .bf16) (X : FVec Ideal S10240x50 .bf16) (D : FVec Ideal S10240x1 .f32)
    (Wl Wr : FVec Ideal S50x512 .bf16) (b : FVec Ideal S1x512 .f32)
    (hA : ∀ i j, A (ix2 i j) = ((cnt i j : ℝ) : EReal)) (hX : ∀ j f, X (ix2 j f) = ((xp j f : ℝ) : EReal))
    (hD : ∀ i, D (ix2 i (0 : Fin 1)) = ((dinv i : ℝ) : EReal)) (hWl : ∀ f k, Wl (ix2 f k) = ((W1l f k : ℝ) : EReal))
    (hWr : ∀ f k, Wr (ix2 f k) = ((W1r f k : ℝ) : EReal)) (hb : ∀ k, b (ix2 (0 : Fin 1) k) = ((b1 k : ℝ) : EReal))
    (i : Fin 10240) (k : Fin 512) :
    (G_h1 A X D Wl Wr b (ix2 i k) : EReal) = ((khid cnt dinv xp W1l W1r b1 i k : ℝ) : EReal) := by
  have h := h1b_real cnt dinv xp W1l W1r b1 A X D Wl Wr b hA hX hD hWl hWr hb (blockOf i) (inBlock i) k
  rw [rowOf_blockOf] at h
  exact h

theorem pb_real (cnt : Fin 10240 → Fin 10240 → ℝ) (dinv : Fin 10240 → ℝ) (xp : Fin 10240 → Fin 50 → ℝ)
    (W1l W1r : Fin 50 → Fin 512 → ℝ) (b1 : Fin 512 → ℝ) (W2lp : Fin 512 → Fin 128 → ℝ)
    (A : FVec Ideal S10240x10240 .bf16) (X : FVec Ideal S10240x50 .bf16) (D : FVec Ideal S10240x1 .f32)
    (Wl Wr : FVec Ideal S50x512 .bf16) (b : FVec Ideal S1x512 .f32) (Wp : FVec Ideal S512x128 .bf16)
    (hA : ∀ i j, A (ix2 i j) = ((cnt i j : ℝ) : EReal)) (hX : ∀ j f, X (ix2 j f) = ((xp j f : ℝ) : EReal))
    (hD : ∀ i, D (ix2 i (0 : Fin 1)) = ((dinv i : ℝ) : EReal)) (hWl : ∀ f k, Wl (ix2 f k) = ((W1l f k : ℝ) : EReal))
    (hWr : ∀ f k, Wr (ix2 f k) = ((W1r f k : ℝ) : EReal)) (hb : ∀ k, b (ix2 (0 : Fin 1) k) = ((b1 k : ℝ) : EReal))
    (hWp : ∀ k o, Wp (ix2 k o) = ((W2lp k o : ℝ) : EReal))
    (mb : Fin 10) (r : Fin 1024) (o : Fin 128) :
    (pb (blkA A mb 0) (blkA A mb 1) (half50 X 0) (half50 X 1) (rows1 D mb) Wl (rows50 X mb) Wr b Wp (ix2 r o) : EReal)
      = ((kproj cnt dinv xp W1l W1r b1 W2lp (rowOf mb r) o : ℝ) : EReal) := by
  have h : ∀ k : Fin 512, (k0_pay3 (F := Ideal) (acc0 (blkA A mb 0) (blkA A mb 1) (half50 X 0) (half50 X 1)) (rows1 D mb) Wl (rows50 X mb) Wr b (ix2 r k) : EReal)
      = ((khid cnt dinv xp W1l W1r b1 (rowOf mb r) k : ℝ) : EReal) :=
    fun k => h1b_real cnt dinv xp W1l W1r b1 A X D Wl Wr b hA hX hD hWl hWr hb mb r k
  unfold pb
  rw [k0_pay4_apply]
  unfold kproj
  simp only [h, hWp, ← coe_sum, EReal.coe_mul]

theorem G_P_apply (cnt : Fin 10240 → Fin 10240 → ℝ) (dinv : Fin 10240 → ℝ) (xp : Fin 10240 → Fin 50 → ℝ)
    (W1l W1r : Fin 50 → Fin 512 → ℝ) (b1 : Fin 512 → ℝ) (W2lp : Fin 512 → Fin 128 → ℝ)
    (A : FVec Ideal S10240x10240 .bf16) (X : FVec Ideal S10240x50 .bf16) (D : FVec Ideal S10240x1 .f32)
    (Wl Wr : FVec Ideal S50x512 .bf16) (b : FVec Ideal S1x512 .f32) (Wp : FVec Ideal S512x128 .bf16)
    (hA : ∀ i j, A (ix2 i j) = ((cnt i j : ℝ) : EReal)) (hX : ∀ j f, X (ix2 j f) = ((xp j f : ℝ) : EReal))
    (hD : ∀ i, D (ix2 i (0 : Fin 1)) = ((dinv i : ℝ) : EReal)) (hWl : ∀ f k, Wl (ix2 f k) = ((W1l f k : ℝ) : EReal))
    (hWr : ∀ f k, Wr (ix2 f k) = ((W1r f k : ℝ) : EReal)) (hb : ∀ k, b (ix2 (0 : Fin 1) k) = ((b1 k : ℝ) : EReal))
    (hWp : ∀ k o, Wp (ix2 k o) = ((W2lp k o : ℝ) : EReal))
    (i : Fin 10240) (o : Fin 128) :
    (G_P A X D Wl Wr b Wp (ix2 i o) : EReal) = ((kproj cnt dinv xp W1l W1r b1 W2lp i o : ℝ) : EReal) := by
  have h := pb_real cnt dinv xp W1l W1r b1 W2lp A X D Wl Wr b Wp hA hX hD hWl hWr hb hWp (blockOf i) (inBlock i) o
  rw [rowOf_blockOf] at h
  exact h

theorem k1_pay1_apply (i : S1024x128.Idx) : (k1_pay1 (F := Ideal)) i = 0 := by
  unfold k1_pay1
  simp only [shapeCast_self]
  exact scalar_zero

theorem k1_pay2_apply (p : FVec Ideal S5120x128 .bf16) (acc : FVec Ideal S1024x128 .f32) (a : FVec Ideal S1024x5120 .bf16)
    (r : Fin 1024) (o : Fin 128) :
    k1_pay2 p acc a (ix2 r o) = acc (ix2 r o) + ∑ j : Fin 5120, a (ix2 r j) * p (ix2 j o) := by
  unfold k1_pay2
  simp only [shapeCast_self]
  rw [addf_apply, mmD_apply]

theorem acc1_apply (a0 a1 : FVec Ideal S1024x5120 .bf16) (p0 p1 : FVec Ideal S5120x128 .bf16) (r : Fin 1024) (o : Fin 128) :
    acc1 a0 a1 p0 p1 (ix2 r o)
      = (0 + ∑ j : Fin 5120, a0 (ix2 r j) * p0 (ix2 j o)) + ∑ j : Fin 5120, a1 (ix2 r j) * p1 (ix2 j o) := by
  unfold acc1
  rw [k1_pay2_apply, k1_pay2_apply, k1_pay1_apply]

theorem k1_pay3_apply (acc : FVec Ideal S1024x128 .f32) (dinv : FVec Ideal S1024x1 .f32) (hs : FVec Ideal S1024x512 .bf16)
    (Wr : FVec Ideal S512x128 .bf16) (b : FVec Ideal S1x128 .f32) (r : Fin 1024) (o : Fin 128) :
    (k1_pay3 (F := Ideal) acc dinv hs Wr b (ix2 r o) : EReal)
      = ((acc (ix2 r o) * dinv (ix2 r (0 : Fin 1))) + ∑ k : Fin 512, hs (ix2 r k) * Wr (ix2 k o)) + b (ix2 (0 : Fin 1) o) := by
  unfold k1_pay3
  simp only [shapeCast_self]
  rw [addf_apply, addf_apply, mulf_apply, broadcastTo_a1_ab_apply, mmC_apply, broadcastTo_1b_ab_apply]

theorem ob_real (cnt : Fin 10240 → Fin 10240 → ℝ) (dinv : Fin 10240 → ℝ) (xp : Fin 10240 → Fin 50 → ℝ)
    (W1l W1r : Fin 50 → Fin 512 → ℝ) (b1 : Fin 512 → ℝ) (W2lp W2rp : Fin 512 → Fin 128 → ℝ) (b2p : Fin 128 → ℝ)
    (A : FVec Ideal S10240x10240 .bf16) (D : FVec Ideal S10240x1 .f32)
    (Pm : FVec Ideal S10240x128 .bf16) (H : FVec Ideal S10240x512 .bf16)
    (Wr2 : FVec Ideal S512x128 .bf16) (bb : FVec Ideal S1x128 .f32)
    (hA : ∀ i j, A (ix2 i j) = ((cnt i j : ℝ) : EReal)) (hD : ∀ i, D (ix2 i (0 : Fin 1)) = ((dinv i : ℝ) : EReal))
    (hP : ∀ j o, (Pm (ix2 j o) : EReal) = ((kproj cnt dinv xp W1l W1r b1 W2lp j o : ℝ) : EReal))
    (hH : ∀ i k, (H (ix2 i k) : EReal) = ((khid cnt dinv xp W1l W1r b1 i k : ℝ) : EReal))
    (hWr2 : ∀ k o, Wr2 (ix2 k o) = ((W2rp k o : ℝ) : EReal)) (hbb : ∀ o, bb (ix2 (0 : Fin 1) o) = ((b2p o : ℝ) : EReal))
    (mb : Fin 10) (r : Fin 1024) (o : Fin 128) :
    (ob (blkA A mb 0) (blkA A mb 1) (half128 Pm 0) (half128 Pm 1) (rows1 D mb) (rows512 H mb) Wr2 bb (ix2 r o) : EReal)
      = ((kout cnt dinv xp W1l W1r b1 W2lp W2rp b2p (rowOf mb r) o : ℝ) : EReal) := by
  unfold ob
  rw [k1_pay3_apply, acc1_apply, zero_add]
  unfold kout
  rw [sum_halves (fun j => cnt (rowOf mb r) j * kproj cnt dinv xp W1l W1r b1 W2lp j o)]
  simp only [blkA_apply, half128_apply, rows1_apply, rows512_apply, hA, hD, hP, hH, hWr2, hbb,
    EReal.coe_add, ← coe_sum, EReal.coe_mul]

/-- At real data the two regions' whole-array functions compose to the dense form of the network. -/
theorem G_out_apply
    (cnt : Fin 10240 → Fin 10240 → ℝ) (dinv : Fin 10240 → ℝ) (xp : Fin 10240 → Fin 50 → ℝ) (W1l W1r : Fin 50 → Fin 512 → ℝ) (b1 : Fin 512 → ℝ)
    (W2lp W2rp : Fin 512 → Fin 128 → ℝ) (b2p : Fin 128 → ℝ)
    (A : FVec Ideal S10240x10240 .bf16) (X : FVec Ideal S10240x50 .bf16) (D : FVec Ideal S10240x1 .f32) (Wl Wr : FVec Ideal S50x512 .bf16)
    (b : FVec Ideal S1x512 .f32) (Wp Wr2 : FVec Ideal S512x128 .bf16) (bb : FVec Ideal S1x128 .f32)
    (hA : ∀ i j, A (ix2 i j) = ((cnt i j : ℝ) : EReal)) (hX : ∀ j f, X (ix2 j f) = ((xp j f : ℝ) : EReal))
    (hD : ∀ i, D (ix2 i (0 : Fin 1)) = ((dinv i : ℝ) : EReal)) (hWl : ∀ f k, Wl (ix2 f k) = ((W1l f k : ℝ) : EReal))
    (hWr : ∀ f k, Wr (ix2 f k) = ((W1r f k : ℝ) : EReal)) (hb : ∀ k, b (ix2 (0 : Fin 1) k) = ((b1 k : ℝ) : EReal))
    (hWp : ∀ k o, Wp (ix2 k o) = ((W2lp k o : ℝ) : EReal)) (hWr2 : ∀ k o, Wr2 (ix2 k o) = ((W2rp k o : ℝ) : EReal))
    (hbb : ∀ o, bb (ix2 (0 : Fin 1) o) = ((b2p o : ℝ) : EReal)) (i : Fin 10240) (o : Fin 128) :
    G_out A (G_P A X D Wl Wr b Wp) (G_h1 A X D Wl Wr b) D Wr2 bb (ix2 i o)
      = ((kout cnt dinv xp W1l W1r b1 W2lp W2rp b2p i o : ℝ) : EReal) := by
  have h := ob_real cnt dinv xp W1l W1r b1 W2lp W2rp b2p A D (G_P A X D Wl Wr b Wp) (G_h1 A X D Wl Wr b) Wr2 bb hA hD
    (G_P_apply cnt dinv xp W1l W1r b1 W2lp A X D Wl Wr b Wp hA hX hD hWl hWr hb hWp)
    (G_h1_apply cnt dinv xp W1l W1r b1 A X D Wl Wr b hA hX hD hWl hWr hb)
    hWr2 hbb (blockOf i) (inBlock i) o
  rw [rowOf_blockOf] at h
  exact h

end Cert.KernelIdeal.KValue

end
-- ==== Proof.RefValue.lean ====
import proofs.«419373_j70497593197182_3_alg».proof.Proof.Gen.ReferenceIdeal.Run
import proofs.«419373_j70497593197182_3_alg».proof.Proof.Gen.ReferenceIdeal.Read
import proofs.«419373_j70497593197182_3_alg».proof.Proof.MathSpec

noncomputable section

open Idealize.ShloMosaic Idealize.ShloMosaic.ValueIdx

namespace Cert.ReferenceIdeal.RefValue

section Rows
variable {α : Type}

abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowGather N E C wf) x idx (ix2 e f)
      = x (ix2 ⟨min (idx (ix2 e (0 : Fin 1))).toInt.toNat (N - 1), by omega⟩ f) := by
  unfold Host.gather
  congr 1
  funext a
  refine Fin.ext ?_
  show (rowGather N E C wf).start (ix2 e f) idx a + (rowGather N E C wf).batchCoord (ix2 e f) a
    + (rowGather N E C wf).offCoord (ix2 e f) a = _
  rw [GatherDims.batchCoord_eq_zero _ _ _ List.not_mem_nil]
  have ha : a = (0 : Fin 2) ∨ a = (1 : Fin 2) := by
    rcases a with ⟨_ | _ | n, h⟩
    · exact Or.inl rfl
    · exact Or.inr rfl
    · exact absurd h (by show ¬ (n + 2 < 2); omega)
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e f) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · unfold GatherDims.start
    rw [dif_neg (show ¬ (1 : Fin 2) ∈ (rowGather N E C wf).startIndexMap from by
      intro h; exact absurd (congrArg Fin.val (List.mem_singleton.mp h)) Nat.one_ne_zero)]
    simp only [Nat.zero_add]
    unfold GatherDims.offCoord
    rw [dif_pos (show (1 : Fin 2) ∈ (rowGather N E C wf).sKept from List.mem_singleton.mpr rfl)]
    rfl

theorem rowGather_apply_of {N E C w : Nat}
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) (se : Fin N)
    (h : (idx (ix2 e (0 : Fin 1))).toInt = ((se.val : Nat) : Int)) :
    Host.gather (rowGather N E C wf) x idx (ix2 e f) = x (ix2 se f) := by
  rw [rowGather_apply se.pos wf]
  have hse : (⟨min (idx (ix2 e (0 : Fin 1))).toInt.toNat (N - 1), by have := se.pos; omega⟩ : Fin N) = se :=
    Fin.ext (by
      show min (idx (ix2 e (0 : Fin 1))).toInt.toNat (N - 1) = se.val
      rw [h, Int.toNat_natCast]; have := se.isLt; omega)
  exact congrArg (fun r => x (ix2 r f)) hse

end Rows

theorem ix2_inj {n0 n1 : Nat} (a a' : Fin n0) (b b' : Fin n1) : ix2 a b = ix2 a' b' ↔ a = a' ∧ b = b' :=
  ⟨fun h => ⟨congrFun h 0, congrFun h 1⟩, fun h => by rw [h.1, h.2]⟩

abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem rowScatter_resultIdx {N E C w : Nat} (wf : ScatterDims.WF ⟨2, ![N, C]⟩ ⟨2, ![E, 1]⟩ ⟨2, ![E, C]⟩ [1] [0] [0] 1)
    (idx : IVec ⟨2, ![E, 1]⟩ w) (dd : Fin E → Fin N)
    (h : ∀ e, (idx (ix2 e (0 : Fin 1))).toInt = ((dd e).val : Int)) (e : Fin E) (f : Fin C) :
    (rowScatter N E C wf).resultIdx? (ix2 e f) idx = some (ix2 (dd e) f) := by
  have hst : ∀ a, (rowScatter N E C wf).start (ix2 e f) idx a + ((rowScatter N E C wf).window (ix2 e f) a : Int)
      = ((ix2 (dd e) f a).val : Int) := by
    intro a
    have ha : a = (0 : Fin 2) ∨ a = (1 : Fin 2) := by
      rcases a with ⟨_ | _ | n, h⟩
      · exact Or.inl rfl
      · exact Or.inr rfl
      · exact absurd h (by show ¬ (n + 2 < 2); omega)
    rcases ha with rfl | rfl
    · unfold ScatterDims.start ScatterDims.window
      rw [dif_pos (show (0 : Fin 2) ∈ (rowScatter N E C wf).scatterDimsToOperandDims from List.mem_singleton.mpr rfl),
        dif_neg (show ¬ (0 : Fin 2) ∈ (rowScatter N E C wf).sKept from by
          intro h0; exact absurd (congrArg Fin.val (List.mem_singleton.mp h0)) (Nat.zero_ne_one))]
      have hsi : (rowScatter N E C wf).siIdx (ix2 e f) ⟨List.idxOf (0 : Fin 2) (rowScatter N E C wf).scatterDimsToOperandDims,
          List.idxOf_lt_length_iff.2 (List.mem_singleton.mpr rfl)⟩ = ix2 e (0 : Fin 1) := by
        funext b; refine Fin.ext ?_
        match b with
        | ⟨0, _⟩ => rfl
        | ⟨1, _⟩ => rfl
      rw [hsi, h e]
      simp
    · unfold ScatterDims.start ScatterDims.window
      rw [dif_neg (show ¬ (1 : Fin 2) ∈ (rowScatter N E C wf).scatterDimsToOperandDims from by
          intro h1; exact absurd (congrArg Fin.val (List.mem_singleton.mp h1)) Nat.one_ne_zero),
        dif_pos (show (1 : Fin 2) ∈ (rowScatter N E C wf).sKept from List.mem_singleton.mpr rfl)]
      simp only [Int.zero_add]
      rfl
  unfold ScatterDims.resultIdx?
  rw [dif_pos (fun a => by
    rw [hst a]; exact ⟨Int.natCast_nonneg _, by exact_mod_cast (ix2 (dd e) f a).isLt⟩)]
  congr 1
  funext a
  refine Fin.ext ?_
  show ((rowScatter N E C wf).start (ix2 e f) idx a + ((rowScatter N E C wf).window (ix2 e f) a : Int)).toNat = _
  rw [hst a]; exact Int.toNat_natCast _

theorem rowScatterAdd_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (dd : Fin E → Fin N) (h : ∀ e, (idx (ix2 e (0 : Fin 1))).toInt = ((dd e).val : Int)) (i : Fin N) (f : Fin C) :
    Ideal.hostScatterAdd (rowScatter N E C wf) x idx upd (ix2 i f)
      = x (ix2 i f) + ∑ e ∈ Finset.univ.filter (fun e => dd e = i), upd (ix2 e f) := by
  unfold Ideal.hostScatterAdd
  congr 1
  rw [Finset.sum_filter, sum_idx2, Finset.sum_filter]
  refine Finset.sum_congr rfl fun e _ => ?_
  simp only [rowScatter_resultIdx wf idx dd h, Option.some.injEq, ix2_inj]
  by_cases hde : dd e = i
  · simp only [hde, true_and, if_true, Finset.sum_ite_eq', Finset.mem_univ]
  · simp only [hde, false_and, if_false, Finset.sum_const_zero]

theorem coe_sum {ι : Type*} (s : Finset ι) (g : ι → ℝ) : ((∑ a ∈ s, g a : ℝ) : EReal) = ∑ a ∈ s, (g a : EReal) := by
  classical
  refine Finset.induction_on s (by simp) fun a s ha ih => ?_
  rw [Finset.sum_insert ha, Finset.sum_insert ha, EReal.coe_add, ih]

theorem coe_max (a b : ℝ) : ((max a b : ℝ) : EReal) = max (a : EReal) (b : EReal) := by
  rcases le_total a b with hab | hab
  · rw [max_eq_right hab, max_eq_right (EReal.coe_le_coe_iff.2 hab)]
  · rw [max_eq_left hab, max_eq_left (EReal.coe_le_coe_iff.2 hab)]

theorem toInt_ofNat_small (n : Nat) (hn : n < 10000) : (BitVec.ofNat 32 n).toInt = (n : Int) := by
  have hm : (BitVec.ofNat 32 n).toNat = n := by
    rw [BitVec.toNat_ofNat]; exact Nat.mod_eq_of_lt (by omega)
  rw [BitVec.toInt_eq_toNat_of_lt (by rw [hm]; omega), hm]

theorem slt_zero_small (n : Nat) (hn : n < 10000) : IntOp.cmpi .slt (BitVec.ofNat 32 n) 0#32 = 0#1 := by
  unfold IntOp.cmpi
  have h : (BitVec.ofNat 32 n).slt 0#32 = false := by
    rw [BitVec.slt, toInt_ofNat_small n hn]
    simp
  simp only [h]
  rfl

theorem ofBits_zero : Ideal.ofBits .f32 0x00000000#32 = ((0 : ℝ) : EReal) := by
  norm_num [Ideal.ofBits, Ideal.ieee]

theorem ofBits_one : Ideal.ofBits .f32 0x3F800000#32 = ((1 : ℝ) : EReal) := by
  have he : 1065353216 >>> 23 % 256 = 127 := by decide
  have hs : BitVec.extractLsb' 31 1 1065353216#32 = 0#1 := by decide
  norm_num [Ideal.ofBits, Ideal.ieee, he, hs]

section Chain
open Cert.ReferenceIdeal Cert.ReferenceIdeal.Gen Cert.ReferenceIdeal.Read Cert.MathSpec

theorem dnm_ne_zero (d : Fin 160000 → Fin 10000) (i : Fin 10000) : dnm d i ≠ 0 :=
  ne_of_gt (lt_of_lt_of_le one_pos (le_max_right _ _))

theorem scatterAdd_ideal {s si u : Shape} {w : Nat} {φ : FTy} (d : ScatterDims s si u) (x : FVec Ideal s φ)
    (idx : IVec si w) (upd : FVec Ideal u φ) :
    Host.scatterAdd d x idx upd = Ideal.hostScatterAdd d x idx upd := rfl

theorem gatherDims50 : gather_S10000x50_S160000x1_S160000x50_1_0_n_n_0_1_150
    = rowGather 10000 160000 50 gather_S10000x50_S160000x1_S160000x50_1_0_n_n_0_1_150_wf := rfl
theorem gatherDims512 : gather_S10000x512_S160000x1_S160000x512_1_0_n_n_0_1_1512
    = rowGather 10000 160000 512 gather_S10000x512_S160000x1_S160000x512_1_0_n_n_0_1_1512_wf := rfl
theorem scatterDims50 : scatter_S10000x50_S160000x1_S160000x50_1_0_0_1
    = rowScatter 10000 160000 50 scatter_S10000x50_S160000x1_S160000x50_1_0_0_1_wf := rfl
theorem scatterDims512 : scatter_S10000x512_S160000x1_S160000x512_1_0_0_1
    = rowScatter 10000 160000 512 scatter_S10000x512_S160000x1_S160000x512_1_0_0_1_wf := rfl
theorem scatterDims1 : scatter_S10000_S160000x1_S160000_n_0_0_1
    = vecScatter 10000 160000 scatter_S10000_S160000x1_S160000_n_0_0_1_wf := rfl

theorem v11_apply (j : S10000x50.Idx) : val_main_v11 (F := Ideal) j = ((0 : ℝ) : EReal) := by
  rw [val_main_v11_apply, val_main_cst_apply, Ideal.ofBits_def, ofBits_zero]
theorem v14_apply (j : S160000.Idx) : val_main_v14 (F := Ideal) j = ((1 : ℝ) : EReal) := by
  rw [val_main_v14_apply, val_main_cst_1_apply, Ideal.ofBits_def, ofBits_one]
theorem v15_apply (j : S10000.Idx) : val_main_v15 (F := Ideal) j = ((0 : ℝ) : EReal) := by
  rw [val_main_v15_apply, val_main_cst_2_apply, Ideal.ofBits_def, ofBits_zero]
theorem v18_apply (j : S10000.Idx) : val_main_v18 (F := Ideal) j = ((1 : ℝ) : EReal) := by
  rw [val_main_v18_apply, val_main_cst_3_apply, Ideal.ofBits_def, ofBits_one]
theorem call0_v0_apply (j : S10000x512.Idx) : val_main_call0_v0 (F := Ideal) j = ((0 : ℝ) : EReal) := by
  rw [val_main_call0_v0_apply, val_main_call0_cst_apply, Ideal.ofBits_def, ofBits_zero]
theorem v37_apply (j : S10000x512.Idx) : val_main_v37 (F := Ideal) j = ((0 : ℝ) : EReal) := by
  rw [val_main_v37_apply, val_main_cst_6_apply, Ideal.ofBits_def, ofBits_zero]
theorem v40_apply (j : S160000.Idx) : val_main_v40 (F := Ideal) j = ((1 : ℝ) : EReal) := by
  rw [val_main_v40_apply, val_main_cst_7_apply, Ideal.ofBits_def, ofBits_one]
theorem v41_apply (j : S10000.Idx) : val_main_v41 (F := Ideal) j = ((0 : ℝ) : EReal) := by
  rw [val_main_v41_apply, val_main_cst_8_apply, Ideal.ofBits_def, ofBits_zero]
theorem v44_apply (j : S10000.Idx) : val_main_v44 (F := Ideal) j = ((1 : ℝ) : EReal) := by
  rw [val_main_v44_apply, val_main_cst_9_apply, Ideal.ofBits_def, ofBits_one]

variable {x0 : (⟨S10000x50, .f32⟩ : BufTy).Contents (Elt Ideal)} {x1 : (⟨S2x160000, .i32⟩ : BufTy).Contents (Elt Ideal)}
  {x2 x3 : (⟨S50x512, .f32⟩ : BufTy).Contents (Elt Ideal)} {x4 : (⟨S512, .f32⟩ : BufTy).Contents (Elt Ideal)}
  {x5 x6 : (⟨S512x121, .f32⟩ : BufTy).Contents (Elt Ideal)} {x7 : (⟨S121, .f32⟩ : BufTy).Contents (Elt Ideal)}
  (R : Cert.RealArgs x0 x1 x2 x3 x4 x5 x6 x7)

theorem v1_apply (e : Fin 160000) : val_main_v1 (F := Ideal) x1 (ix1 e) = BitVec.ofNat 32 (R.s e).val := by
  rw [val_main_v1_apply, val_main_v0_apply]
  have hi : idx_main_v0 (idx_main_v1 (ix1 e)) = ix2 (0 : Fin 2) e := by
    funext a
    match a with
    | ⟨0, _⟩ => rfl
    | ⟨1, _⟩ => exact Fin.ext (Nat.mod_eq_of_lt e.isLt)
  rw [hi]; exact R.hs e

theorem v3_apply (e : Fin 160000) : val_main_v3 (F := Ideal) x1 (ix1 e) = BitVec.ofNat 32 (R.d e).val := by
  rw [val_main_v3_apply, val_main_v2_apply]
  have hi : idx_main_v2 (idx_main_v3 (ix1 e)) = ix2 (1 : Fin 2) e := by
    funext a
    match a with
    | ⟨0, _⟩ => rfl
    | ⟨1, _⟩ => exact Fin.ext (Nat.mod_eq_of_lt e.isLt)
  rw [hi]; exact R.hd e

theorem v8_apply (e : Fin 160000) : val_main_v8 (F := Ideal) x1 (ix1 e) = BitVec.ofNat 32 (R.s e).val := by
  rw [val_main_v8_apply, val_main_v5_apply, val_main_v4_apply, val_main_c_apply, v1_apply R e,
    slt_zero_small _ (R.s e).isLt, select_zero]

theorem v9_apply (e : Fin 160000) :
    val_main_v9 (F := Ideal) x1 (ix2 e (0 : Fin 1)) = BitVec.ofNat 32 (R.s e).val := by
  rw [val_main_v9_apply]
  have hi : idx_main_v9 (ix2 e (0 : Fin 1)) = ix1 e := by
    funext a
    match a with
    | ⟨0, _⟩ => rfl
  rw [hi]; exact v8_apply R e

theorem v34_apply (e : Fin 160000) : val_main_v34 (F := Ideal) x1 (ix1 e) = BitVec.ofNat 32 (R.s e).val := by
  rw [val_main_v34_apply, val_main_v31_apply, val_main_v30_apply, val_main_c_4_apply, v1_apply R e,
    slt_zero_small _ (R.s e).isLt, select_zero]

theorem v35_apply (e : Fin 160000) :
    val_main_v35 (F := Ideal) x1 (ix2 e (0 : Fin 1)) = BitVec.ofNat 32 (R.s e).val := by
  rw [val_main_v35_apply]
  have hi : idx_main_v35 (ix2 e (0 : Fin 1)) = ix1 e := by
    funext a
    match a with
    | ⟨0, _⟩ => rfl
  rw [hi]; exact v34_apply R e

theorem v12_apply (e : Fin 160000) :
    val_main_v12 (F := Ideal) x1 (ix2 e (0 : Fin 1)) = BitVec.ofNat 32 (R.d e).val := by
  rw [val_main_v12_apply]
  have hi : idx_main_v12 (ix2 e (0 : Fin 1)) = ix1 e := by
    funext a
    match a with
    | ⟨0, _⟩ => rfl
  rw [hi]; exact v3_apply R e

theorem v16_apply (e : Fin 160000) :
    val_main_v16 (F := Ideal) x1 (ix2 e (0 : Fin 1)) = BitVec.ofNat 32 (R.d e).val := by
  rw [val_main_v16_apply]
  have hi : idx_main_v16 (ix2 e (0 : Fin 1)) = ix1 e := by
    funext a
    match a with
    | ⟨0, _⟩ => rfl
  rw [hi]; exact v3_apply R e

theorem v38_apply (e : Fin 160000) :
    val_main_v38 (F := Ideal) x1 (ix2 e (0 : Fin 1)) = BitVec.ofNat 32 (R.d e).val := by
  rw [val_main_v38_apply]
  have hi : idx_main_v38 (ix2 e (0 : Fin 1)) = ix1 e := by
    funext a
    match a with
    | ⟨0, _⟩ => rfl
  rw [hi]; exact v3_apply R e

theorem v42_apply (e : Fin 160000) :
    val_main_v42 (F := Ideal) x1 (ix2 e (0 : Fin 1)) = BitVec.ofNat 32 (R.d e).val := by
  rw [val_main_v42_apply]
  have hi : idx_main_v42 (ix2 e (0 : Fin 1)) = ix1 e := by
    funext a
    match a with
    | ⟨0, _⟩ => rfl
  rw [hi]; exact v3_apply R e

theorem v10_apply (e : Fin 160000) (f : Fin 50) :
    val_main_v10 (F := Ideal) x0 x1 (ix2 e f) = ((R.x (R.s e) f : ℝ) : EReal) := by
  unfold val_main_v10
  rw [gatherDims50, rowGather_apply_of _ _ _ e f (R.s e) (by rw [v9_apply R e]; exact toInt_ofNat_small _ (R.s e).isLt)]
  exact R.hx _ _

theorem v13_apply (i : Fin 10000) (f : Fin 50) :
    val_main_v13 (F := Ideal) x0 x1 (ix2 i f) = ((∑ e ∈ inEdges R.d i, R.x (R.s e) f : ℝ) : EReal) := by
  unfold val_main_v13
  rw [scatterAdd_ideal, scatterDims50, rowScatterAdd_apply _ _ _ _ R.d (fun e => by rw [v12_apply R e]; exact toInt_ofNat_small _ (R.d e).isLt) i f,
    v11_apply, coe_sum]
  simp only [v10_apply R]
  rw [EReal.coe_zero, zero_add]; rfl

theorem v17_apply (i : Fin 10000) :
    val_main_v17 (F := Ideal) x1 (ix1 i) = (((inEdges R.d i).card : ℝ) : EReal) := by
  unfold val_main_v17
  rw [scatterAdd_ideal, scatterDims1, vecScatterAdd_apply _ _ _ _ R.d (fun e => by rw [v16_apply R e]; exact toInt_ofNat_small _ (R.d e).isLt) i,
    v15_apply]
  simp only [v14_apply]
  rw [← coe_sum, EReal.coe_zero, zero_add, Finset.sum_const, nsmul_eq_mul, mul_one]; rfl

theorem v19_apply (i : Fin 10000) : val_main_v19 (F := Ideal) x1 (ix1 i) = ((dnm R.d i : ℝ) : EReal) := by
  rw [val_main_v19_apply, Ideal.maximumf_def, v17_apply R i, v18_apply, ← coe_max]; rfl

theorem v20_apply (i : Fin 10000) :
    val_main_v20 (F := Ideal) x1 (ix2 i (0 : Fin 1)) = ((dnm R.d i : ℝ) : EReal) := by
  rw [val_main_v20_apply]
  have hi : idx_main_v20 (ix2 i (0 : Fin 1)) = ix1 i := by
    funext a
    match a with
    | ⟨0, _⟩ => rfl
  rw [hi]; exact v19_apply R i

theorem v21_apply (i : Fin 10000) (f : Fin 50) :
    val_main_v21 (F := Ideal) x1 (ix2 i f) = ((dnm R.d i : ℝ) : EReal) := by
  rw [val_main_v21_apply]
  have hi : idx_main_v21 (ix2 i f) = ix2 i (0 : Fin 1) := by
    funext a
    match a with
    | ⟨0, _⟩ => rfl
    | ⟨1, _⟩ => rfl
  rw [hi]; exact v20_apply R i

/-- Layer 1's mean aggregation at node `i`: the sum over its in-edges of the source rows, over the clamped in-degree. -/
theorem v22_apply (i : Fin 10000) (f : Fin 50) :
    val_main_v22 (F := Ideal) x0 x1 (ix2 i f) = ((agg R.s R.d R.x i f : ℝ) : EReal) := by
  rw [val_main_v22_apply, Ideal.hostDivf_def, v13_apply R i f, v21_apply R i f, Ideal.div_coe (dnm_ne_zero R.d i),
    ← EReal.coe_mul, mul_one_div]
  rfl

theorem v23_apply (i : Fin 10000) (k : Fin 512) :
    val_main_v23 (F := Ideal) x0 x1 x2 (ix2 i k) = ((∑ f, agg R.s R.d R.x i f * R.W1l f k : ℝ) : EReal) := by
  rw [val_main_v23_apply, coe_sum]
  refine Finset.sum_congr rfl fun f _ => ?_
  have hl : lidx_main_v23 (ix2 i k) f = ix2 i f := by
    funext a
    match a with
    | ⟨0, _⟩ => rfl
    | ⟨1, _⟩ => rfl
  have hr : ridx_main_v23 (ix2 i k) f = ix2 f k := by
    funext a
    match a with
    | ⟨0, _⟩ => rfl
    | ⟨1, _⟩ => rfl
  rw [hl, hr, v22_apply R i f, R.hW1l f k, EReal.coe_mul]

theorem v24_apply (i : Fin 10000) (k : Fin 512) :
    val_main_v24 (F := Ideal) x0 x3 (ix2 i k) = ((∑ f, R.x i f * R.W1r f k : ℝ) : EReal) := by
  rw [val_main_v24_apply, coe_sum]
  refine Finset.sum_congr rfl fun f _ => ?_
  have hl : lidx_main_v24 (ix2 i k) f = ix2 i f := by
    funext a
    match a with
    | ⟨0, _⟩ => rfl
    | ⟨1, _⟩ => rfl
  have hr : ridx_main_v24 (ix2 i k) f = ix2 f k := by
    funext a
    match a with
    | ⟨0, _⟩ => rfl
    | ⟨1, _⟩ => rfl
  rw [hl, hr, R.hx i f, R.hW1r f k, EReal.coe_mul]

theorem v27_apply (i : Fin 10000) (k : Fin 512) :
    val_main_v27 (F := Ideal) x4 (ix2 i k) = ((R.b1 k : ℝ) : EReal) := by
  rw [val_main_v27_apply, val_main_v26_apply]
  have hi : idx_main_v26 (idx_main_v27 (ix2 i k)) = ix1 k := by
    funext a
    match a with
    | ⟨0, _⟩ => rfl
  rw [hi]; exact R.hb1 k

theorem v29_apply (i : Fin 10000) (k : Fin 512) :
    val_main_v29 (F := Ideal) x0 x1 x2 x3 x4 (ix2 i k)
      = ((hid R.s R.d R.x R.W1l R.W1r R.b1 i k : ℝ) : EReal) := by
  rw [val_main_v29_apply, Ideal.maximumf_def, val_main_v28_apply, Ideal.addf_def, val_main_v25_apply, Ideal.addf_def,
    v23_apply R i k, v24_apply R i k, v27_apply R i k, call0_v0_apply, ← EReal.coe_add, ← EReal.coe_add, ← coe_max]
  rfl

theorem v36_apply (e : Fin 160000) (k : Fin 512) :
    val_main_v36 (F := Ideal) x0 x1 x2 x3 x4 (ix2 e k)
      = ((hid R.s R.d R.x R.W1l R.W1r R.b1 (R.s e) k : ℝ) : EReal) := by
  unfold val_main_v36
  rw [gatherDims512, rowGather_apply_of _ _ _ e k (R.s e) (by rw [v35_apply R e]; exact toInt_ofNat_small _ (R.s e).isLt)]
  exact v29_apply R (R.s e) k

theorem v39_apply (i : Fin 10000) (k : Fin 512) :
    val_main_v39 (F := Ideal) x0 x1 x2 x3 x4 (ix2 i k)
      = ((∑ e ∈ inEdges R.d i, hid R.s R.d R.x R.W1l R.W1r R.b1 (R.s e) k : ℝ) : EReal) := by
  unfold val_main_v39
  rw [scatterAdd_ideal, scatterDims512, rowScatterAdd_apply _ _ _ _ R.d (fun e => by rw [v38_apply R e]; exact toInt_ofNat_small _ (R.d e).isLt) i k,
    v37_apply, coe_sum]
  simp only [v36_apply R]
  rw [EReal.coe_zero, zero_add]; rfl

theorem v43_apply (i : Fin 10000) :
    val_main_v43 (F := Ideal) x1 (ix1 i) = (((inEdges R.d i).card : ℝ) : EReal) := by
  unfold val_main_v43
  rw [scatterAdd_ideal, scatterDims1, vecScatterAdd_apply _ _ _ _ R.d (fun e => by rw [v42_apply R e]; exact toInt_ofNat_small _ (R.d e).isLt) i,
    v41_apply]
  simp only [v40_apply]
  rw [← coe_sum, EReal.coe_zero, zero_add, Finset.sum_const, nsmul_eq_mul, mul_one]; rfl

theorem v45_apply (i : Fin 10000) : val_main_v45 (F := Ideal) x1 (ix1 i) = ((dnm R.d i : ℝ) : EReal) := by
  rw [val_main_v45_apply, Ideal.maximumf_def, v43_apply R i, v44_apply, ← coe_max]; rfl

theorem v46_apply (i : Fin 10000) :
    val_main_v46 (F := Ideal) x1 (ix2 i (0 : Fin 1)) = ((dnm R.d i : ℝ) : EReal) := by
  rw [val_main_v46_apply]
  have hi : idx_main_v46 (ix2 i (0 : Fin 1)) = ix1 i := by
    funext a
    match a with
    | ⟨0, _⟩ => rfl
  rw [hi]; exact v45_apply R i

theorem v47_apply (i : Fin 10000) (k : Fin 512) :
    val_main_v47 (F := Ideal) x1 (ix2 i k) = ((dnm R.d i : ℝ) : EReal) := by
  rw [val_main_v47_apply]
  have hi : idx_main_v47 (ix2 i k) = ix2 i (0 : Fin 1) := by
    funext a
    match a with
    | ⟨0, _⟩ => rfl
    | ⟨1, _⟩ => rfl
  rw [hi]; exact v46_apply R i

theorem v48_apply (i : Fin 10000) (k : Fin 512) :
    val_main_v48 (F := Ideal) x0 x1 x2 x3 x4 (ix2 i k)
      = ((agg R.s R.d (hid R.s R.d R.x R.W1l R.W1r R.b1) i k : ℝ) : EReal) := by
  rw [val_main_v48_apply, Ideal.hostDivf_def, v39_apply R i k, v47_apply R i k, Ideal.div_coe (dnm_ne_zero R.d i),
    ← EReal.coe_mul, mul_one_div]
  rfl

theorem v49_apply (i : Fin 10000) (o : Fin 121) :
    val_main_v49 (F := Ideal) x0 x1 x2 x3 x4 x5 (ix2 i o)
      = ((∑ k, agg R.s R.d (hid R.s R.d R.x R.W1l R.W1r R.b1) i k * R.W2l k o : ℝ) : EReal) := by
  rw [val_main_v49_apply, coe_sum]
  refine Finset.sum_congr rfl fun k _ => ?_
  have hl : lidx_main_v49 (ix2 i o) k = ix2 i k := by
    funext a
    match a with
    | ⟨0, _⟩ => rfl
    | ⟨1, _⟩ => rfl
  have hr : ridx_main_v49 (ix2 i o) k = ix2 k o := by
    funext a
    match a with
    | ⟨0, _⟩ => rfl
    | ⟨1, _⟩ => rfl
  rw [hl, hr, v48_apply R i k, R.hW2l k o, EReal.coe_mul]

theorem v50_apply (i : Fin 10000) (o : Fin 121) :
    val_main_v50 (F := Ideal) x0 x1 x2 x3 x4 x6 (ix2 i o)
      = ((∑ k, hid R.s R.d R.x R.W1l R.W1r R.b1 i k * R.W2r k o : ℝ) : EReal) := by
  rw [val_main_v50_apply, coe_sum]
  refine Finset.sum_congr rfl fun k _ => ?_
  have hl : lidx_main_v50 (ix2 i o) k = ix2 i k := by
    funext a
    match a with
    | ⟨0, _⟩ => rfl
    | ⟨1, _⟩ => rfl
  have hr : ridx_main_v50 (ix2 i o) k = ix2 k o := by
    funext a
    match a with
    | ⟨0, _⟩ => rfl
    | ⟨1, _⟩ => rfl
  rw [hl, hr, v29_apply R i k, R.hW2r k o, EReal.coe_mul]

theorem v53_apply (i : Fin 10000) (o : Fin 121) :
    val_main_v53 (F := Ideal) x7 (ix2 i o) = ((R.b2 o : ℝ) : EReal) := by
  rw [val_main_v53_apply, val_main_v52_apply]
  have hi : idx_main_v52 (idx_main_v53 (ix2 i o)) = ix1 o := by
    funext a
    match a with
    | ⟨0, _⟩ => rfl
  rw [hi]; exact R.hb2 o

theorem out_apply (i : Fin 10000) (o : Fin 121) :
    val_main_v54 (F := Ideal) x0 x1 x2 x3 x4 x5 x6 x7 (ix2 i o)
      = ((out R.s R.d R.x R.W1l R.W1r R.b1 R.W2l R.W2r R.b2 i o : ℝ) : EReal) := by
  rw [val_main_v54_apply, Ideal.addf_def, val_main_v51_apply, Ideal.addf_def, v49_apply R i o, v50_apply R i o,
    v53_apply R i o, ← EReal.coe_add, ← EReal.coe_add]
  rfl

end Chain

section Result
open Cert.ReferenceIdeal Cert.ReferenceIdeal.Gen Idealize.ShloMosaic.TcCoe Idealize.SL.Sem Idealize.ShloMosaic.StableHlo

/-- The reference's result is the edge-wise network of the data its arguments hold. -/
theorem result_apply (m : (ℓ : Loc Cert.ReferenceIdeal.nD Cert.ReferenceIdeal.τ Cert.ReferenceIdeal.sig) → Buf (Elt Ideal) ℓ)
    (c : Dev Cert.ReferenceIdeal.nD)
    (R : Cert.RealArgs (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7)))
    (i : Fin 10000) (o : Fin 121) :
    (Cert.ReferenceIdeal.Value.res_main_v54 (F := Ideal) m c : FVec Ideal Cert.ReferenceIdeal.S10000x121 .f32) (ValueIdx.ix2 i o)
      = ((Cert.MathSpec.out R.s R.d R.x R.W1l R.W1r R.b1 R.W2l R.W2r R.b2 i o : ℝ) : EReal) :=
  (congrFun (Cert.ReferenceIdeal.Read.val_main_v54_eq (F := Ideal) m c) (ValueIdx.ix2 i o)).trans (out_apply R i o)

end Result

end Cert.ReferenceIdeal.RefValue

end
-- ==== Proof.PreFacts.lean ====
import proofs.«419373_j70497593197182_3_alg».proof.Pre_finite_inputs
import proofs.«419373_j70497593197182_3_alg».proof.Proof.MathSpec
import Idealize.ShloMosaic.Lib.ReduceAll
import Idealize.ShloMosaic.Lib.StableHlo.Predicate
import Idealize.ShloMosaic.Lib.ValueIdx

noncomputable section

open Idealize.ShloMosaic Idealize.ShloMosaic.ValueIdx

namespace Cert.PreFacts

instance : Subsingleton Cert.Pre_finite_inputs.S_.Idx := ⟨fun a b => funext fun d => d.elim0⟩

theorem inf_eq_top : Ideal.ofBits .f32 0x7F800000#32 = ⊤ := by simp [Ideal.ofBits, Ideal.ieee]

theorem real_of_abs_lt_inf (x : Ideal .f32)
    (h : FloatOps.cmpf .olt (FloatOps.hostAbsf x) (FloatOps.ofBits (F := Ideal) .f32 0x7F800000#32) = 1#1) :
    ∃ r : ℝ, x = ((r : ℝ) : EReal) := by
  have h' : BitVec.ofBool (decide (max (x : EReal) (-(x : EReal)) < Ideal.ofBits .f32 0x7F800000#32)) = 1#1 := h
  rw [inf_eq_top, StableHlo.Predicate.ofBool_eq_one_iff, decide_eq_true_eq] at h'
  induction x using EReal.rec with
  | bot => exact absurd h' (by simp)
  | top => exact absurd h' (by simp)
  | coe r => exact ⟨r, rfl⟩

theorem word_of_range (w : BitVec 32) (h0 : IntOp.cmpi .sge w 0#32 = 1#1) (h1 : IntOp.cmpi .slt w 10000#32 = 1#1) :
    w.toNat < 10000 := by
  have e0 : BitVec.ofBool ((0#32 : BitVec 32).sle w) = 1#1 := h0
  have e1 : BitVec.ofBool (w.slt 10000#32) = 1#1 := h1
  rw [StableHlo.Predicate.ofBool_eq_one_iff] at e0 e1
  have z : (0#32 : BitVec 32).toInt = 0 := by decide
  have t : (10000#32 : BitVec 32).toInt = 10000 := by decide
  simp only [BitVec.sle, BitVec.slt, z, t, decide_eq_true_eq] at e0 e1
  rw [BitVec.toInt_eq_toNat_cond] at e0 e1
  have hw := w.isLt
  split at e0 <;> omega

section Arrays

open Cert.Pre_finite_inputs

variable {s : Shape} {axes : List (Fin s.rank)}

theorem entries_real (a : FVec Ideal s .f32) (hb : S_.BroadcastsInDim s (![] : Fin 0 → Fin s.rank))
    (hr : s.ReducesTo axes S_) (hu : 0 < S_.numel)
    (h : Host.reduce IntOp.andi (cmpf .olt (Host.absf a) (broadcastInDim s ![] hb (constant S_ .f32 0x7F800000#32)))
      (constantI S_ 1 1#1) hr hu ix0 = 1#1) (i : s.Idx) : ∃ r : ℝ, a i = ((r : ℝ) : EReal) :=
  real_of_abs_lt_inf (a i) (Host.reduce_andi_all _ _ hr hu ix0 h i)

theorem words_in_range (a : IVec s 32) (hb : S_.BroadcastsInDim s (![] : Fin 0 → Fin s.rank))
    (hr : s.ReducesTo axes S_) (hu : 0 < S_.numel)
    (h0 : Host.reduce IntOp.andi (cmpi .sge a (broadcastInDim s ![] hb (constantI S_ 32 0#32)))
      (constantI S_ 1 1#1) hr hu ix0 = 1#1)
    (h1 : Host.reduce IntOp.andi (cmpi .slt a (broadcastInDim s ![] hb (constantI S_ 32 10000#32)))
      (constantI S_ 1 1#1) hr hu ix0 = 1#1) (i : s.Idx) : (a i).toNat < 10000 :=
  word_of_range (a i) (Host.reduce_andi_all _ _ hr hu ix0 h0 i) (Host.reduce_andi_all _ _ hr hu ix0 h1 i)

end Arrays

/-- Finite float inputs are tables of reals, and edge words inside the node range are node numbers. -/
theorem realArgs_of_pre [Cert.Pre_finite_inputs.Facts]
    (a0 : FVec Ideal Cert.Pre_finite_inputs.S10000x50 .f32) (a1 : IVec Cert.Pre_finite_inputs.S2x160000 32)
    (a2 a3 : FVec Ideal Cert.Pre_finite_inputs.S50x512 .f32) (a4 : FVec Ideal Cert.Pre_finite_inputs.S512 .f32)
    (a5 a6 : FVec Ideal Cert.Pre_finite_inputs.S512x121 .f32) (a7 : FVec Ideal Cert.Pre_finite_inputs.S121 .f32)
    (h : Cert.Pre_finite_inputs.fn (F := Ideal) a0 a1 a2 a3 a4 a5 a6 a7 = fun _ => 1#1) :
    Nonempty (Cert.RealArgs a0 a1 a2 a3 a4 a5 a6 a7) := by
  have h0 := congrFun h ix0
  dsimp only [Cert.Pre_finite_inputs.fn, Cert.Pre_finite_inputs.fn_part1, Cert.Pre_finite_inputs.fn_part2, andi] at h0
  simp only [IntOp.andi_eq_one] at h0
  obtain ⟨⟨⟨⟨⟨⟨⟨⟨c0, c2⟩, c3⟩, c4⟩, c5⟩, c6⟩, c7⟩, cge⟩, clt⟩ := h0
  have r0 := entries_real a0 _ _ _ c0
  have r2 := entries_real a2 _ _ _ c2
  have r3 := entries_real a3 _ _ _ c3
  have r4 := entries_real a4 _ _ _ c4
  have r5 := entries_real a5 _ _ _ c5
  have r6 := entries_real a6 _ _ _ c6
  have r7 := entries_real a7 _ _ _ c7
  have rng := words_in_range a1 _ _ _ cge clt
  have word : ∀ w : BitVec 32, w = BitVec.ofNat 32 w.toNat := fun w => by simp
  exact ⟨{
    s := fun e => ⟨(a1 (ix2 (0 : Fin 2) e)).toNat, rng _⟩
    d := fun e => ⟨(a1 (ix2 (1 : Fin 2) e)).toNat, rng _⟩
    x := fun i f => Classical.choose (r0 (ix2 i f))
    W1l := fun f k => Classical.choose (r2 (ix2 f k))
    W1r := fun f k => Classical.choose (r3 (ix2 f k))
    b1 := fun k => Classical.choose (r4 (ix1 k))
    W2l := fun k o => Classical.choose (r5 (ix2 k o))
    W2r := fun k o => Classical.choose (r6 (ix2 k o))
    b2 := fun o => Classical.choose (r7 (ix1 o))
    hs := fun e => word _
    hd := fun e => word _
    hx := fun i f => Classical.choose_spec (r0 (ix2 i f))
    hW1l := fun f k => Classical.choose_spec (r2 (ix2 f k))
    hW1r := fun f k => Classical.choose_spec (r3 (ix2 f k))
    hb1 := fun k => Classical.choose_spec (r4 (ix1 k))
    hW2l := fun k o => Classical.choose_spec (r5 (ix2 k o))
    hW2r := fun k o => Classical.choose_spec (r6 (ix2 k o))
    hb2 := fun o => Classical.choose_spec (r7 (ix1 o)) }⟩

end Cert.PreFacts

end
-- ==== Proof.Algebra.lean ====
import proofs.«419373_j70497593197182_3_alg».proof.Proof.MathSpec
import Mathlib.Algebra.BigOperators.Group.Finset.Basic
import Mathlib.Algebra.BigOperators.Group.Finset.Sigma
import Mathlib.Algebra.BigOperators.Ring.Finset
import Mathlib.Data.Real.Basic
import Mathlib.Tactic.Ring

namespace Cert.MathSpec

theorem sum_card_fiber_mul {E N : Type*} [Fintype E] [Fintype N] [DecidableEq N]
    (p : E → Prop) [DecidablePred p] (t : E → N) (y : N → ℝ) :
    ∑ j, ((Finset.univ.filter fun e => p e ∧ t e = j).card : ℝ) * y j
      = ∑ e ∈ Finset.univ.filter p, y (t e) := by
  rw [← Finset.sum_fiberwise' (Finset.univ.filter p) t y]
  refine Finset.sum_congr rfl fun j _ => ?_
  rw [Finset.sum_const, nsmul_eq_mul, Finset.filter_filter]

theorem sum_sum_mul_one_div {E K : Type*} [Fintype K] (S : Finset E) (h : E → K → ℝ) (W : K → ℝ) (D : ℝ) :
    (∑ e ∈ S, ∑ k, h e k * W k) * (1 / D) = ∑ k, (∑ e ∈ S, h e k) / D * W k := by
  rw [Finset.sum_comm, Finset.sum_mul]
  refine Finset.sum_congr rfl fun k _ => ?_
  rw [← Finset.sum_mul]
  ring

theorem padRows_node {C : ℕ} (x : Fin 10000 → Fin C → ℝ) (i : Fin 10000) (f : Fin C) :
    padRows x (node i) f = x i f := by
  have h : (node i).val < 10000 := i.isLt
  unfold padRows
  exact dif_pos h

theorem padCols_col {K : ℕ} (W : Fin K → Fin 121 → ℝ) (k : Fin K) (o : Fin 121) :
    padCols W k (col o) = W k o := by
  have h : (col o).val < 121 := o.isLt
  unfold padCols
  exact dif_pos h

theorem padVec_col (b : Fin 121 → ℝ) (o : Fin 121) : padVec b (col o) = b o := by
  have h : (col o).val < 121 := o.isLt
  unfold padVec
  exact dif_pos h

theorem val_eq_node_iff (a i : Fin 10000) : a.val = (node i).val ↔ a = i :=
  ⟨fun h => Fin.ext h, fun h => by subst h; rfl⟩

theorem val_eq_iff_node_eq (a : Fin 10000) (j : Fin 10240) : a.val = j.val ↔ node a = j :=
  ⟨fun h => Fin.ext h, fun h => by subst h; rfl⟩

theorem dinvOf_node (d : Fin 160000 → Fin 10000) (i : Fin 10000) : dinvOf d (node i) = 1 / dnm d i := by
  have h : (Finset.univ.filter fun e : Fin 160000 => (d e).val = (node i).val)
      = Finset.univ.filter fun e : Fin 160000 => d e = i :=
    Finset.filter_congr fun e _ => val_eq_node_iff (d e) i
  unfold dinvOf dnm inEdges
  rw [h]

theorem cntOf_node_mul_sum (s d : Fin 160000 → Fin 10000) (i : Fin 10000) (y : Fin 10240 → ℝ) :
    ∑ j, cntOf s d (node i) j * y j = ∑ e ∈ inEdges d i, y (node (s e)) := by
  unfold inEdges
  rw [← sum_card_fiber_mul (fun e => d e = i) (fun e => node (s e)) y]
  refine Finset.sum_congr rfl fun j _ => ?_
  have h : (Finset.univ.filter fun e : Fin 160000 => (d e).val = (node i).val ∧ (s e).val = j.val)
      = Finset.univ.filter fun e : Fin 160000 => d e = i ∧ node (s e) = j :=
    Finset.filter_congr fun e _ => and_congr (val_eq_node_iff (d e) i) (val_eq_iff_node_eq (s e) j)
  unfold cntOf
  rw [h]

theorem dense_agg_node (s d : Fin 160000 → Fin 10000) {C : ℕ} (x : Fin 10000 → Fin C → ℝ) (i : Fin 10000) (f : Fin C) :
    (∑ j, cntOf s d (node i) j * padRows x j f) * dinvOf d (node i) = agg s d x i f := by
  rw [cntOf_node_mul_sum s d i (fun j => padRows x j f), dinvOf_node, mul_one_div]
  unfold agg
  exact congrArg (· / dnm d i) (Finset.sum_congr rfl fun e _ => padRows_node x (s e) f)

theorem khid_node (s d : Fin 160000 → Fin 10000) (x : Fin 10000 → Fin 50 → ℝ) (W1l W1r : Fin 50 → Fin 512 → ℝ)
    (b1 : Fin 512 → ℝ) (i : Fin 10000) (k : Fin 512) :
    khid (cntOf s d) (dinvOf d) (padRows x) W1l W1r b1 (node i) k = hid s d x W1l W1r b1 i k := by
  have h1 : ∑ f, ((∑ j, cntOf s d (node i) j * padRows x j f) * dinvOf d (node i)) * W1l f k
      = ∑ f, agg s d x i f * W1l f k :=
    Finset.sum_congr rfl fun f _ => by rw [dense_agg_node]
  have h2 : ∑ f, padRows x (node i) f * W1r f k = ∑ f, x i f * W1r f k :=
    Finset.sum_congr rfl fun f _ => by rw [padRows_node]
  unfold khid hid
  rw [h1, h2]

/-- Regrouping the count-matrix products edge by edge turns the dense form into the edge-wise one; padding rows and
    columns add nothing. -/
theorem kout_eq_out (s d : Fin 160000 → Fin 10000) (x : Fin 10000 → Fin 50 → ℝ) (W1l W1r : Fin 50 → Fin 512 → ℝ) (b1 : Fin 512 → ℝ)
    (W2l W2r : Fin 512 → Fin 121 → ℝ) (b2 : Fin 121 → ℝ) (i : Fin 10000) (o : Fin 121) :
    kout (cntOf s d) (dinvOf d) (padRows x) W1l W1r b1 (padCols W2l) (padCols W2r) (padVec b2) (node i) (col o)
      = out s d x W1l W1r b1 W2l W2r b2 i o := by

  have hP : ∀ a : Fin 10000, kproj (cntOf s d) (dinvOf d) (padRows x) W1l W1r b1 (padCols W2l) (node a) (col o)
      = ∑ k, hid s d x W1l W1r b1 a k * W2l k o := by
    intro a
    unfold kproj
    exact Finset.sum_congr rfl fun k _ => by rw [khid_node, padCols_col]

  have hA : (∑ j, cntOf s d (node i) j * kproj (cntOf s d) (dinvOf d) (padRows x) W1l W1r b1 (padCols W2l) j (col o))
        * dinvOf d (node i)
      = ∑ k, agg s d (hid s d x W1l W1r b1) i k * W2l k o := by
    rw [cntOf_node_mul_sum s d i
        (fun j => kproj (cntOf s d) (dinvOf d) (padRows x) W1l W1r b1 (padCols W2l) j (col o)),
      dinvOf_node, Finset.sum_congr rfl fun e _ => hP (s e), sum_sum_mul_one_div]
    rfl

  have hB : ∑ k, khid (cntOf s d) (dinvOf d) (padRows x) W1l W1r b1 (node i) k * padCols W2r k (col o)
      = ∑ k, hid s d x W1l W1r b1 i k * W2r k o :=
    Finset.sum_congr rfl fun k _ => by rw [khid_node, padCols_col]
  unfold kout out
  rw [hA, hB, padVec_col]

end Cert.MathSpec
-- ==== Proof.Bridge.lean ====
import proofs.«419373_j70497593197182_3_alg».proof.Defs
import proofs.«419373_j70497593197182_3_alg».proof.Proof.Gen.Kernel
import proofs.«419373_j70497593197182_3_alg».proof.Proof.Gen.KernelIdeal
import proofs.«419373_j70497593197182_3_alg».proof.Proof.Gen.ReferenceIdeal
import proofs.«419373_j70497593197182_3_alg».proof.Proof.Gen.Pre_finite_inputs
import proofs.«419373_j70497593197182_3_alg».proof.Proof.Gen.ReferenceIdeal.Run
import proofs.«419373_j70497593197182_3_alg».proof.Proof.KI.Launch
import proofs.«419373_j70497593197182_3_alg».proof.Proof.KHost
import proofs.«419373_j70497593197182_3_alg».proof.Proof.KValue
import proofs.«419373_j70497593197182_3_alg».proof.Proof.RefValue
import proofs.«419373_j70497593197182_3_alg».proof.Proof.PreFacts
import proofs.«419373_j70497593197182_3_alg».proof.Proof.Algebra

noncomputable section

open Idealize.ShloMosaic Idealize.SL.Sem Idealize.ShloMosaic.ValueIdx

def Cert.RealArgs.transport {a0 b0 : FVec Ideal ⟨2, ![10000, 50]⟩ .f32} {a1 b1 : IVec ⟨2, ![2, 160000]⟩ 32}
    {a2 a3 b2 b3 : FVec Ideal ⟨2, ![50, 512]⟩ .f32} {a4 b4 : FVec Ideal ⟨1, ![512]⟩ .f32}
    {a5 a6 b5 b6 : FVec Ideal ⟨2, ![512, 121]⟩ .f32} {a7 b7 : FVec Ideal ⟨1, ![121]⟩ .f32}
    (R : Cert.RealArgs a0 a1 a2 a3 a4 a5 a6 a7)
    (h0 : b0 = a0) (h1 : b1 = a1) (h2 : b2 = a2) (h3 : b3 = a3) (h4 : b4 = a4) (h5 : b5 = a5) (h6 : b6 = a6) (h7 : b7 = a7) :
    Cert.RealArgs b0 b1 b2 b3 b4 b5 b6 b7 where
  s := R.s
  d := R.d
  x := R.x
  W1l := R.W1l
  W1r := R.W1r
  b1 := R.b1
  W2l := R.W2l
  W2r := R.W2r
  b2 := R.b2
  hs := h1 ▸ R.hs
  hd := h1 ▸ R.hd
  hx := h0 ▸ R.hx
  hW1l := h2 ▸ R.hW1l
  hW1r := h3 ▸ R.hW1r
  hb1 := h4 ▸ R.hb1
  hW2l := h5 ▸ R.hW2l
  hW2r := h6 ▸ R.hW2r
  hb2 := h7 ▸ R.hb2

namespace Cert.Proof.Bridge

attribute [local instance] Cert.Kernel.Gen.facts Cert.KernelIdeal.Gen.facts Cert.ReferenceIdeal.Gen.facts
  Cert.Pre_finite_inputs.Gen.facts

def outE {a0 a1 a2 a3 a4 a5 a6 a7} (R : Cert.RealArgs a0 a1 a2 a3 a4 a5 a6 a7) : FVec Ideal ⟨2, ![10000, 121]⟩ .f32 :=
  fun idx => ((Cert.MathSpec.out R.s R.d R.x R.W1l R.W1r R.b1 R.W2l R.W2r R.b2 ⟨(idx 0).val, idx2_lt0 idx⟩
    ⟨(idx 1).val, idx2_lt1 idx⟩ : ℝ) : EReal)

theorem frame_ki : Cert.frame_KernelIdeal := fun m ρ _ => Cert.KernelIdeal.Hand.frame m ρ

/-- No operation was rewritten, so the program as printed is the same term as its idealization, and its frame is
    that program's frame, which is proved for any float instance. -/
theorem frame_k : Cert.frame_Kernel := fun m ρ _ =>
  cast (by sl_kernel_rfl) (Cert.KernelIdeal.Hand.frame (F := Bits) m ρ)

theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m g m' g' hpre hagree
  have hR : ∀ c : Dev Cert.KernelIdeal.nD, Nonempty (Cert.RealArgs
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))) :=
    fun c => Cert.PreFacts.realArgs_of_pre _ _ _ _ _ _ _ _ (hpre c)
  let R := fun c => Classical.choice (hR c)
  refine ⟨fun c => outE (R c), ?_, ?_⟩
  ·
    refine (θ_run (Cert.KernelIdeal.defs (F := Ideal)) _ _).mono (fun r h c => ⟨(h c).1.trans ?_, (h c).2⟩)
      (Cert.KernelIdeal.Hand.run_value (F := Ideal) m g)
    funext idx
    obtain ⟨i, o, rfl⟩ : ∃ (i : Fin 10000) (o : Fin 121), idx = ix2 i o := ⟨idx 0, idx 1, eq_ix2 idx⟩
    rw [Cert.KernelIdeal.KHost.slice_apply]
    rw [Cert.KernelIdeal.KValue.G_out_apply (Cert.MathSpec.cntOf (R c).s (R c).d) (Cert.MathSpec.dinvOf (R c).d)
      (Cert.MathSpec.padRows (R c).x) (R c).W1l (R c).W1r (R c).b1 (Cert.MathSpec.padCols (R c).W2l)
      (Cert.MathSpec.padCols (R c).W2r) (Cert.MathSpec.padVec (R c).b2) _ _ _ _ _ _ _ _ _
      (Cert.KernelIdeal.KHost.A_apply m c (R c)) (Cert.KernelIdeal.KHost.X_apply m c (R c))
      (Cert.KernelIdeal.KHost.D_apply m c (R c)) (Cert.KernelIdeal.KHost.W1l_apply m c (R c))
      (Cert.KernelIdeal.KHost.W1r_apply m c (R c)) (Cert.KernelIdeal.KHost.b1_apply m c (R c))
      (Cert.KernelIdeal.KHost.W2l_apply m c (R c)) (Cert.KernelIdeal.KHost.W2r_apply m c (R c))
      (Cert.KernelIdeal.KHost.b2_apply m c (R c)) (Cert.MathSpec.node i) (Cert.MathSpec.col o)]
    rw [Cert.MathSpec.kout_eq_out]
    rfl
  ·
    refine (θ_run (Cert.ReferenceIdeal.defs (F := Ideal)) _ _).mono (fun r h c => ⟨(h c).1.trans ?_, (h c).2⟩)
      (Cert.ReferenceIdeal.Value.run (F := Ideal) m' g')
    funext idx
    obtain ⟨i, o, rfl⟩ : ∃ (i : Fin 10000) (o : Fin 121), idx = ix2 i o := ⟨idx 0, idx 1, eq_ix2 idx⟩
    exact Cert.ReferenceIdeal.RefValue.result_apply m' c
      ((R c).transport (hagree c).1 (hagree c).2.1 (hagree c).2.2.1 (hagree c).2.2.2.1 (hagree c).2.2.2.2.1
        (hagree c).2.2.2.2.2.1 (hagree c).2.2.2.2.2.2.1 (hagree c).2.2.2.2.2.2.2) i o

end Cert.Proof.Bridge

end
-- ==== Proof.lean ====
import proofs.«419373_j70497593197182_3_alg».proof.Defs
import proofs.«419373_j70497593197182_3_alg».proof.Proof.Bridge
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Bridge.frame_k, Bridge.frame_ki, Bridge.frame_ri, trivial, Bridge.algebraic⟩

end Cert.Proof

end
